-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S1x64 : Shape := ⟨2, ![1, 64]⟩
abbrev S320x128 : Shape := ⟨2, ![320, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1280 : Shape := ⟨1, ![1280]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S1x64 : S_.BroadcastsInDim S1x64 (![] : Fin 0 → Fin S1x64.rank)
  reducesTo_S1x64_S_d0_1 : S1x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S1280 : S_.BroadcastsInDim S1280 (![] : Fin 0 → Fin S1280.rank)
  reducesTo_S1280_S_d0 : S1280.ReducesTo [0] S_

variable [Facts]

def fn_part6 {F : FTy → Type} [FloatOps F] (main_v98 : IVec S_ 1) (main_v101 : IVec S1280 1) (main_c_39 : IVec S_ 1) : IVec S_ 1 :=
  let main_v102 : IVec S_ 1 := (fun x v => Host.reduce IntOp.andi x v reducesTo_S1280_S_d0 h_S_) main_v101 main_c_39
  let main_v103 : IVec S_ 1 := andi main_v98 main_v102
  main_v103

def fn_part5 {F : FTy → Type} [FloatOps F] (main_arg19 : FVec F S10 .f32) (main_arg20 : FVec F S1280 .f32) (main_arg21 : FVec F S1280 .f32) (main_v83 : IVec S_ 1) (main_v84 : FVec F S128x10 .f32) (main_cst_32 : FVec F S_ .f32) : IVec S_ 1 :=
  let main_v85 : FVec F S128x10 .f32 := broadcastInDim S128x10 ![] bcast_S_S128x10 main_cst_32
  let main_v86 : IVec S128x10 1 := cmpf .olt main_v84 main_v85
  let main_c_33 : IVec S_ 1 := constantI S_ 1 1#1
  let main_v87 : IVec S_ 1 := (fun x v => Host.reduce IntOp.andi x v reducesTo_S128x10_S_d0_1 h_S_) main_v86 main_c_33
  let main_v88 : IVec S_ 1 := andi main_v83 main_v87
  let main_v89 : FVec F S10 .f32 := Host.absf main_arg19
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S1280 .f32 := Host.absf main_arg20
  let main_cst_36 : FVec F S_ .f32 := constant S_ .f32 0x7F800000#32
  let main_v95 : FVec F S1280 .f32 := broadcastInDim S1280 ![] bcast_S_S1280 main_cst_36
  let main_v96 : IVec S1280 1 := cmpf .olt main_v94 main_v95
  let main_c_37 : IVec S_ 1 := constantI S_ 1 1#1
  let main_v97 : IVec S_ 1 := (fun x v => Host.reduce IntOp.andi x v reducesTo_S1280_S_d0 h_S_) main_v96 main_c_37
  let main_v98 : IVec S_ 1 := andi main_v93 main_v97
  let main_v99 : FVec F S1280 .f32 := Host.absf main_arg21
  let main_cst_38 : FVec F S_ .f32 := constant S_ .f32 0x7F800000#32
  let main_v100 : FVec F S1280 .f32 := broadcastInDim S1280 ![] bcast_S_S1280 main_cst_38
  let main_v101 : IVec S1280 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x10 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S1280 .f32) (main_arg13 : FVec F S1280 .f32) (main_arg14 : FVec F S128x128 .f32) (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S1280 .f32 := Host.absf main_arg12
  let main_cst_20 : FVec F S_ .f32 := constant S_ .f32 0x7F800000#32
  let main_v55 : FVec F S1280 .f32 := broadcastInDim S1280 ![] bcast_S_S1280 main_cst_20
  let main_v56 : IVec S1280 1 := cmpf .olt main_v54 main_v55
  let main_c_21 : IVec S_ 1 := constantI S_ 1 1#1
  let main_v57 : IVec S_ 1 := (fun x v => Host.reduce IntOp.andi x v reducesTo_S1280_S_d0 h_S_) main_v56 main_c_21
  let main_v58 : IVec S_ 1 := andi main_v53 main_v57
  let main_v59 : FVec F S1280 .f32 := Host.absf main_arg13
  let main_cst_22 : FVec F S_ .f32 := constant S_ .f32 0x7F800000#32
  let main_v60 : FVec F S1280 .f32 := broadcastInDim S1280 ![] bcast_S_S1280 main_cst_22
  let main_v61 : IVec S1280 1 := cmpf .olt main_v59 main_v60
  let main_c_23 : IVec S_ 1 := constantI S_ 1 1#1
  let main_v62 : IVec S_ 1 := (fun x v => Host.reduce IntOp.andi x v reducesTo_S1280_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S128x128 .f32) (main_arg9 : FVec F S128 .f32) (main_arg10 : FVec F S128x10 .f32) (main_arg11 : FVec F S10 .f32) (main_arg12 : FVec F S1280 .f32) (main_arg13 : FVec F S1280 .f32) (main_arg14 : FVec F S128x128 .f32) (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg10
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) (main_arg12 : FVec F S1280 .f32) (main_arg13 : FVec F S1280 .f32) (main_arg14 : FVec F S128x128 .f32) (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x800000 32) (main_arg2 : FVec F S800000x128 .f32) (main_arg3 : FVec F S1x64 .f32) (main_arg4 : FVec F S320x128 .f32) (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) (main_arg12 : FVec F S1280 .f32) (main_arg13 : FVec F S1280 .f32) (main_arg14 : FVec F S128x128 .f32) (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S320x128 .f32 := Host.absf main_arg4
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S1x64 : Shape := ⟨2, ![1, 64]⟩
abbrev S320x128 : Shape := ⟨2, ![320, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1280 : Shape := ⟨1, ![1280]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S64x128 : Shape := ⟨2, ![64, 128]⟩
abbrev S1x128 : Shape := ⟨2, ![1, 128]⟩
abbrev S1000x128 : Shape := ⟨2, ![1000, 128]⟩
abbrev S1x10 : Shape := ⟨2, ![1, 10]⟩
abbrev S1x1280 : Shape := ⟨2, ![1, 1280]⟩
abbrev S1000x10 : Shape := ⟨2, ![1000, 10]⟩
abbrev S1000 : Shape := ⟨1, ![1000]⟩
abbrev S1000x1 : Shape := ⟨2, ![1000, 1]⟩
abbrev S1000x1280 : Shape := ⟨2, ![1000, 1280]⟩

abbrev nBuf : Space → Nat
  | .hbm => 77
  | .vmem => 59
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S1x64, .f32⟩
  | .hbm, ⟨4, _⟩ => ⟨S320x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S1280, .f32⟩
  | .hbm, ⟨13, _⟩ => ⟨S1280, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x10, .f32⟩
  | .hbm, ⟨19, _⟩ => ⟨S10, .f32⟩
  | .hbm, ⟨20, _⟩ => ⟨S1280, .f32⟩
  | .hbm, ⟨21, _⟩ => ⟨S1280, .f32⟩
  | .hbm, ⟨22, _⟩ => ⟨S1x800000, .i32⟩
  | .hbm, ⟨23, _⟩ => ⟨S800000, .i32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S128x128, .f32⟩
  | .hbm, ⟨29, _⟩ => ⟨S128x128, .f32⟩
  | .hbm, ⟨30, _⟩ => ⟨S64x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S1x128, .f32⟩
  | .hbm, ⟨36, _⟩ => ⟨S1x128, .f32⟩
  | .hbm, ⟨37, _⟩ => ⟨S1x10, .f32⟩
  | .hbm, ⟨38, _⟩ => ⟨S1x1280, .f32⟩
  | .hbm, ⟨39, _⟩ => ⟨S1x1280, .f32⟩
  | .hbm, ⟨40, _⟩ => ⟨S50000x128, .f32⟩
  | .hbm, ⟨41, _⟩ => ⟨S1x1280, .f32⟩
  | .hbm, ⟨42, _⟩ => ⟨S1x1280, .f32⟩
  | .hbm, ⟨43, _⟩ => ⟨S_, .f32⟩
  | .hbm, ⟨44, _⟩ => ⟨S1x1280, .f32⟩
  | .hbm, ⟨45, _⟩ => ⟨S1x1280, .f32⟩
  | .hbm, ⟨46, _⟩ => ⟨S_, .f32⟩
  | .hbm, ⟨47, _⟩ => ⟨S1x1280, .f32⟩
  | .hbm, ⟨48, _⟩ => ⟨S1x1280, .f32⟩
  | .hbm, ⟨49, _⟩ => ⟨S1x1280, .f32⟩
  | .hbm, ⟨50, _⟩ => ⟨S1x1280, .f32⟩
  | .hbm, ⟨51, _⟩ => ⟨S_, .f32⟩
  | .hbm, ⟨52, _⟩ => ⟨S1x1280, .f32⟩
  | .hbm, ⟨53, _⟩ => ⟨S1x1280, .f32⟩
  | .hbm, ⟨54, _⟩ => ⟨S1x1280, .f32⟩
  | .hbm, ⟨55, _⟩ => ⟨S50000x128, .f32⟩
  | .hbm, ⟨56, _⟩ => ⟨S1x128, .f32⟩
  | .hbm, ⟨57, _⟩ => ⟨S1x128, .f32⟩
  | .hbm, ⟨58, _⟩ => ⟨S1x10, .f32⟩
  | .hbm, ⟨59, _⟩ => ⟨S1x1280, .f32⟩
  | .hbm, ⟨60, _⟩ => ⟨S1x1280, .f32⟩
  | .hbm, ⟨61, _⟩ => ⟨S50000x128, .f32⟩
  | .hbm, ⟨62, _⟩ => ⟨S1x1280, .f32⟩
  | .hbm, ⟨63, _⟩ => ⟨S1x1280, .f32⟩
  | .hbm, ⟨64, _⟩ => ⟨S_, .f32⟩
  | .hbm, ⟨65, _⟩ => ⟨S1x1280, .f32⟩
  | .hbm, ⟨66, _⟩ => ⟨S1x1280, .f32⟩
  | .hbm, ⟨67, _⟩ => ⟨S_, .f32⟩
  | .hbm, ⟨68, _⟩ => ⟨S1x1280, .f32⟩
  | .hbm, ⟨69, _⟩ => ⟨S1x1280, .f32⟩
  | .hbm, ⟨70, _⟩ => ⟨S1x1280, .f32⟩
  | .hbm, ⟨71, _⟩ => ⟨S1x1280, .f32⟩
  | .hbm, ⟨72, _⟩ => ⟨S_, .f32⟩
  | .hbm, ⟨73, _⟩ => ⟨S1x1280, .f32⟩
  | .hbm, ⟨74, _⟩ => ⟨S1x1280, .f32⟩
  | .hbm, ⟨75, _⟩ => ⟨S1x1280, .f32⟩
  | .hbm, ⟨76, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x10, .f32⟩
  | .local _ .vmem, ⟨16, _⟩ => ⟨S1x10, .f32⟩
  | .local _ .vmem, ⟨17, _⟩ => ⟨S1000x128, .f32⟩
  | .local _ .vmem, ⟨18, _⟩ => ⟨S1000x128, .f32⟩
  | .local _ .vmem, ⟨19, _⟩ => ⟨S1x1280, .f32⟩
  | .local _ .vmem, ⟨20, _⟩ => ⟨S1x1280, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S128x10, .f32⟩
  | .local _ .vmem, ⟨26, _⟩ => ⟨S1x10, .f32⟩
  | .local _ .vmem, ⟨27, _⟩ => ⟨S1x1280, .f32⟩
  | .local _ .vmem, ⟨28, _⟩ => ⟨S1x1280, .f32⟩
  | .local _ .vmem, ⟨29, _⟩ => ⟨S1x1280, .f32⟩
  | .local _ .vmem, ⟨30, _⟩ => ⟨S1x1280, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S128x10, .f32⟩
  | .local _ .vmem, ⟨40, _⟩ => ⟨S1x10, .f32⟩
  | .local _ .vmem, ⟨41, _⟩ => ⟨S1000x128, .f32⟩
  | .local _ .vmem, ⟨42, _⟩ => ⟨S1000x128, .f32⟩
  | .local _ .vmem, ⟨43, _⟩ => ⟨S1x1280, .f32⟩
  | .local _ .vmem, ⟨44, _⟩ => ⟨S1x1280, .f32⟩
  | .local _ .vmem, ⟨45, _⟩ => ⟨S1000x128, .f32⟩
  | .local _ .vmem, ⟨46, _⟩ => ⟨S1000x128, .f32⟩
  | .local _ .vmem, ⟨47, _⟩ => ⟨S1000x128, .f32⟩
  | .local _ .vmem, ⟨48, _⟩ => ⟨S1000x128, .f32⟩
  | .local _ .vmem, ⟨49, _⟩ => ⟨S1000x128, .f32⟩
  | .local _ .vmem, ⟨50, _⟩ => ⟨S1000x128, .f32⟩
  | .local _ .vmem, ⟨51, _⟩ => ⟨S128x10, .f32⟩
  | .local _ .vmem, ⟨52, _⟩ => ⟨S1x10, .f32⟩
  | .local _ .vmem, ⟨53, _⟩ => ⟨S1x1280, .f32⟩
  | .local _ .vmem, ⟨54, _⟩ => ⟨S1x1280, .f32⟩
  | .local _ .vmem, ⟨55, _⟩ => ⟨S1x1280, .f32⟩
  | .local _ .vmem, ⟨56, _⟩ => ⟨S1x1280, .f32⟩
  | .local _ .vmem, ⟨57, _⟩ => ⟨S1000x128, .f32⟩
  | .local _ .vmem, ⟨58, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17_0 : Ref sig .tc := ⟨.hbm, 40, rfl⟩
abbrev main_v17_1 : Ref sig .tc := ⟨.hbm, 41, rfl⟩
abbrev main_v17_2 : Ref sig .tc := ⟨.hbm, 42, rfl⟩
abbrev main_cst_0 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33_0 : Ref sig .tc := ⟨.hbm, 61, rfl⟩
abbrev main_v33_1 : Ref sig .tc := ⟨.hbm, 62, rfl⟩
abbrev main_v33_2 : Ref sig .tc := ⟨.hbm, 63, rfl⟩
abbrev main_cst_3 : Ref sig .tc := ⟨.hbm, 64, rfl⟩
abbrev main_v34 : Ref sig .tc := ⟨.hbm, 65, rfl⟩
abbrev main_v35 : Ref sig .tc := ⟨.hbm, 66, rfl⟩
abbrev main_cst_4 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg9_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg8_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg7_1 : Ref sig .tc := ⟨.vmem, 42, rfl⟩
abbrev cc3_stg8_0 : Ref sig .tc := ⟨.vmem, 43, rfl⟩
abbrev cc3_stg9_0 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg9_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem9_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem7_1 : DmaSem sig := 42
abbrev cc3_sem8_0 : DmaSem sig := 43
abbrev cc3_sem9_0 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem9_1 : DmaSem sig := 58

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1280 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1280 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1280 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1280 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1280 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1280 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x1280 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1280 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1280 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1280 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1280 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1280 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x800000_S1x800000_0_0 : S2x800000.Slices ![0, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  slices_S320x128_S128x128_0_0 : S320x128.Slices ![0, 0] S128x128
  slices_S320x128_S128x128_128_0 : S320x128.Slices ![128, 0] S128x128
  slices_S320x128_S64x128_256_0 : S320x128.Slices ![256, 0] S64x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S10_S1x10 : S10.ShapeCasts S1x10
  shapeCasts_S1280_S1x1280 : S1280.ShapeCasts S1x1280
  inb_S1x1280_S1x1280_0_0 : ∀ a, (![0, 0] : Fin 2 → Nat) a + S1x1280.size a ≤ S1x1280.size a
  h_S1x1280 : 0 < S1x1280.numel
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  reduces_S1000x10_S1000 : S1000x10.Reduces [1] S1000
  shapeCasts_S1000_S1000x1 : S1000.ShapeCasts S1000x1
  broadcasts_S1000x1_S1000x10 : S1000x1.Broadcasts S1000x10
  slices_S1000x10_o0_0_S1000x1 : S1000x10.Slices ![0, 0] S1000x1
  broadcasts_S1000x1_S1000x128 : S1000x1.Broadcasts S1000x128
  slices_S1000x10_o0_1_S1000x1 : S1000x10.Slices ![0, 1] S1000x1
  slices_S1000x10_o0_2_S1000x1 : S1000x10.Slices ![0, 2] S1000x1
  slices_S1000x10_o0_3_S1000x1 : S1000x10.Slices ![0, 3] S1000x1
  slices_S1000x10_o0_4_S1000x1 : S1000x10.Slices ![0, 4] S1000x1
  slices_S1000x10_o0_5_S1000x1 : S1000x10.Slices ![0, 5] S1000x1
  slices_S1000x10_o0_6_S1000x1 : S1000x10.Slices ![0, 6] S1000x1
  slices_S1000x10_o0_7_S1000x1 : S1000x10.Slices ![0, 7] S1000x1
  slices_S1000x10_o0_8_S1000x1 : S1000x10.Slices ![0, 8] S1000x1
  slices_S1000x10_o0_9_S1000x1 : S1000x10.Slices ![0, 9] S1000x1
  concatenates_S1000x128_S1000x128_S1000x128_S1000x128_S1000x128_S1000x128_S1000x128_S1000x128_S1000x128_S1000x128_S1000x1280_d1 : Shape.Concatenates [S1000x128, S1000x128, S1000x128, S1000x128, S1000x128, S1000x128, S1000x128, S1000x128, S1000x128, S1000x128] S1000x1280 1
  shapeCasts_S1x1280_S1x1280 : S1x1280.ShapeCasts S1x1280
  reduces_S1000x1280_S1280 : S1000x1280.Reduces [0] S1280
  bcast_S_S1x1280 : S_.BroadcastsInDim S1x1280 (![] : Fin 0 → Fin S1x1280.rank)
  broadcasts_S1x1280_S1000x1280 : S1x1280.Broadcasts S1000x1280
  slices_S1000x1280_o0_0_S1000x128 : S1000x1280.Slices ![0, 0] S1000x128
  slices_S1000x1280_o0_128_S1000x128 : S1000x1280.Slices ![0, 128] S1000x128
  slices_S1000x1280_o0_256_S1000x128 : S1000x1280.Slices ![0, 256] S1000x128
  slices_S1000x1280_o0_384_S1000x128 : S1000x1280.Slices ![0, 384] S1000x128
  slices_S1000x1280_o0_512_S1000x128 : S1000x1280.Slices ![0, 512] S1000x128
  slices_S1000x1280_o0_640_S1000x128 : S1000x1280.Slices ![0, 640] S1000x128
  slices_S1000x1280_o0_768_S1000x128 : S1000x1280.Slices ![0, 768] S1000x128
  slices_S1000x1280_o0_896_S1000x128 : S1000x1280.Slices ![0, 896] S1000x128
  slices_S1000x1280_o0_1024_S1000x128 : S1000x1280.Slices ![0, 1024] S1000x128
  slices_S1000x1280_o0_1152_S1000x128 : S1000x1280.Slices ![0, 1152] S1000x128
  scatter_S50000x128_S800000x1_S800000x128_1_0_0_1_wf : ScatterDims.WF S50000x128 S800000x1 S800000x128 [1] [0] [0] 1
  dot_S1x64_S64x128_S1x128_1_0_0_1_n_n_wf : DotDims.WF S1x64 S64x128 S1x128 [1] [0] [0] [1] [] []
  dot_S1000x128_S128x128_S1000x128_1_0_0_1_n_n_wf : DotDims.WF S1000x128 S128x128 S1000x128 [1] [0] [0] [1] [] []
  dot_S1000x128_S128x10_S1000x10_1_0_0_1_n_n_wf : DotDims.WF S1000x128 S128x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x10.size a ≤ S128x10.size a
  hwx1_5 : ∀ i : grid1.Coords, EltTy.bits .f32 = 32 ∨ (Rect.block (s := S128x10) S128x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S50000x128.size a
  hwx1_7 : ∀ i : grid1.Coords, EltTy.bits .f32 = 32 ∨ (Rect.block (s := S50000x128) S1000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1280.size a ≤ S1x1280.size a
  hwx1_8 : ∀ i : grid1.Coords, EltTy.bits .f32 = 32 ∨ (Rect.block (s := S1x1280) S1x1280.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1280.size a ≤ S1x1280.size a
  hwx1_9 : ∀ i : grid1.Coords, EltTy.bits .f32 = 32 ∨ (Rect.block (s := S1x1280) S1x1280.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x10.size a ≤ S128x10.size a
  hwx2_2 : ∀ i : grid2.Coords, EltTy.bits .f32 = 32 ∨ (Rect.block (s := S128x10) S128x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1280.size a ≤ S1x1280.size a
  hwx2_4 : ∀ i : grid2.Coords, EltTy.bits .f32 = 32 ∨ (Rect.block (s := S1x1280) S1x1280.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1280.size a ≤ S1x1280.size a
  hwx2_5 : ∀ i : grid2.Coords, EltTy.bits .f32 = 32 ∨ (Rect.block (s := S1x1280) S1x1280.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1280.size a ≤ S1x1280.size a
  hwx2_6 : ∀ i : grid2.Coords, EltTy.bits .f32 = 32 ∨ (Rect.block (s := S1x1280) S1x1280.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1280.size a ≤ S1x1280.size a
  hwx2_7 : ∀ i : grid2.Coords, EltTy.bits .f32 = 32 ∨ (Rect.block (s := S1x1280) S1x1280.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x128.size a ≤ S50000x128.size a
  hwx2_8 : ∀ i : grid2.Coords, EltTy.bits .f32 = 32 ∨ (Rect.block (s := S50000x128) S1000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x10.size a ≤ S128x10.size a
  hwx3_5 : ∀ i : grid3.Coords, EltTy.bits .f32 = 32 ∨ (Rect.block (s := S128x10) S128x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x128.size a ≤ S50000x128.size a
  hwx3_7 : ∀ i : grid3.Coords, EltTy.bits .f32 = 32 ∨ (Rect.block (s := S50000x128) S1000x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1280.size a ≤ S1x1280.size a
  hwx3_8 : ∀ i : grid3.Coords, EltTy.bits .f32 = 32 ∨ (Rect.block (s := S1x1280) S1x1280.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1280.size a ≤ S1x1280.size a
  hwx3_9 : ∀ i : grid3.Coords, EltTy.bits .f32 = 32 ∨ (Rect.block (s := S1x1280) S1x1280.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S50000x128.size a
  hwx4_1 : ∀ i : grid4.Coords, EltTy.bits .f32 = 32 ∨ (Rect.block (s := S50000x128) S1000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S50000x128.size a
  hwx4_2 : ∀ i : grid4.Coords, EltTy.bits .f32 = 32 ∨ (Rect.block (s := S50000x128) S1000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10.size a ≤ S128x10.size a
  hwx4_3 : ∀ i : grid4.Coords, EltTy.bits .f32 = 32 ∨ (Rect.block (s := S128x10) S128x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1280.size a ≤ S1x1280.size a
  hwx4_5 : ∀ i : grid4.Coords, EltTy.bits .f32 = 32 ∨ (Rect.block (s := S1x1280) S1x1280.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1280.size a ≤ S1x1280.size a
  hwx4_6 : ∀ i : grid4.Coords, EltTy.bits .f32 = 32 ∨ (Rect.block (s := S1x1280) S1x1280.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1280.size a ≤ S1x1280.size a
  hwx4_7 : ∀ i : grid4.Coords, EltTy.bits .f32 = 32 ∨ (Rect.block (s := S1x1280) S1x1280.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1280.size a ≤ S1x1280.size a
  hwx4_8 : ∀ i : grid4.Coords, EltTy.bits .f32 = 32 ∨ (Rect.block (s := S1x1280) S1x1280.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1000x128.size a ≤ S50000x128.size a
  hwx4_9 : ∀ i : grid4.Coords, EltTy.bits .f32 = 32 ∨ (Rect.block (s := S50000x128) S1000x128.size (cc4_transform_9 i) (hinb4_9 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17_0) S1000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v17_1) S1x1280.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17_2) S1x1280.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v17_0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x1280.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x1280.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1x1280.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S1x1280.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v27) S1000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v27) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S128x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v30) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v33_0) S1000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v33_1) S1x1280.size cc3_transform_8 reads3_8 true true 1 stage3_8 sem3_8
    hrank3 hreads3_8 hinb3_8 nbuf3_8 (Memref.isWhole_whole _) hwx3_8 hstage3_8

abbrev win3_9 : Pipeline.Window sig grid3 :=
  Pipeline.Window.ofSpec (Memref.whole main_v33_2) S1x1280.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v33_0) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S128x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v30) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v31) S1x1280.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v32) S1x1280.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v35) S1x1280.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v42) S1x1280.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v43) S1000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S1x64 : Shape := ⟨2, ![1, 64]⟩
abbrev S320x128 : Shape := ⟨2, ![320, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1280 : Shape := ⟨1, ![1280]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x50000x64 : Shape := ⟨3, ![1, 50000, 64]⟩
abbrev S50000x64 : Shape := ⟨2, ![50000, 64]⟩
abbrev S50000x320 : Shape := ⟨2, ![50000, 320]⟩
abbrev S1x128 : Shape := ⟨2, ![1, 128]⟩
abbrev S50000x10 : Shape := ⟨2, ![50000, 10]⟩
abbrev S1x10 : Shape := ⟨2, ![1, 10]⟩
abbrev S50000 : Shape := ⟨1, ![50000]⟩
abbrev S50000x1 : Shape := ⟨2, ![50000, 1]⟩
abbrev S50000x10x1 : Shape := ⟨3, ![50000, 10, 1]⟩
abbrev S50000x1x128 : Shape := ⟨3, ![50000, 1, 128]⟩
abbrev S50000x10x128 : Shape := ⟨3, ![50000, 10, 128]⟩
abbrev S50000x1280 : Shape := ⟨2, ![50000, 1280]⟩
abbrev S1x1280 : Shape := ⟨2, ![1, 1280]⟩

abbrev nBuf : Space → Nat
  | .hbm => 246
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S1x64, .f32⟩
  | 4 => ⟨S320x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S1280, .f32⟩
  | 13 => ⟨S1280, .f32⟩
  | 14 => ⟨S128x128, .f32⟩
  | 15 => ⟨S128, .f32⟩
  | 16 => ⟨S128x128, .f32⟩
  | 17 => ⟨S128, .f32⟩
  | 18 => ⟨S128x10, .f32⟩
  | 19 => ⟨S10, .f32⟩
  | 20 => ⟨S1280, .f32⟩
  | 21 => ⟨S1280, .f32⟩
  | 22 => ⟨S1x800000, .i32⟩
  | 23 => ⟨S800000, .i32⟩
  | 24 => ⟨S_, .f32⟩
  | 25 => ⟨S50000x128, .f32⟩
  | 26 => ⟨S800000x1, .i32⟩
  | 27 => ⟨S50000x128, .f32⟩
  | 28 => ⟨S1x50000x64, .f32⟩
  | 29 => ⟨S50000x64, .f32⟩
  | 30 => ⟨S50000x320, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S50000x128, .f32⟩
  | 40 => ⟨S50000x128, .i1⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S50000x128, .f32⟩
  | 58 => ⟨S50000x128, .i1⟩
  | 59 => ⟨S50000x128, .f32⟩
  | 60 => ⟨S50000x128, .f32⟩
  | 61 => ⟨S50000x128, .f32⟩
  | 62 => ⟨S50000x128, .f32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S50000x10, .f32⟩
  | 72 => ⟨S1x10, .f32⟩
  | 73 => ⟨S50000x10, .f32⟩
  | 74 => ⟨S50000x10, .f32⟩
  | 75 => ⟨S_, .f32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x10, .f32⟩
  | 82 => ⟨S50000x10, .f32⟩
  | 83 => ⟨S50000x10, .f32⟩
  | 84 => ⟨S_, .f32⟩
  | 85 => ⟨S50000, .f32⟩
  | 86 => ⟨S50000x1, .f32⟩
  | 87 => ⟨S50000x10, .f32⟩
  | 88 => ⟨S50000x10, .f32⟩
  | 89 => ⟨S50000x10x1, .f32⟩
  | 90 => ⟨S50000x1x128, .f32⟩
  | 91 => ⟨S50000x10x128, .f32⟩
  | 92 => ⟨S50000x10x128, .f32⟩
  | 93 => ⟨S50000x10x128, .f32⟩
  | 94 => ⟨S50000x1280, .f32⟩
  | 95 => ⟨S_, .f32⟩
  | 96 => ⟨S1280, .f32⟩
  | 97 => ⟨S_, .f32⟩
  | 98 => ⟨S1280, .f32⟩
  | 99 => ⟨S1280, .f32⟩
  | 100 => ⟨S_, .i32⟩
  | 101 => ⟨S_, .f32⟩
  | 102 => ⟨S1280, .f32⟩
  | 103 => ⟨S1x1280, .f32⟩
  | 104 => ⟨S_, .f32⟩
  | 105 => ⟨S1x1280, .f32⟩
  | 106 => ⟨S1x1280, .f32⟩
  | 107 => ⟨S50000x1280, .f32⟩
  | 108 => ⟨S50000x1280, .f32⟩
  | 109 => ⟨S50000x1280, .f32⟩
  | 110 => ⟨S_, .f32⟩
  | 111 => ⟨S_, .f32⟩
  | 112 => ⟨S_, .f32⟩
  | 113 => ⟨S_, .f32⟩
  | 114 => ⟨S1280, .f32⟩
  | 115 => ⟨S1280, .f32⟩
  | 116 => ⟨S1280, .f32⟩
  | 117 => ⟨S_, .f32⟩
  | 118 => ⟨S_, .i1⟩
  | 119 => ⟨S_, .f32⟩
  | 120 => ⟨S_, .f32⟩
  | 121 => ⟨S1280, .f32⟩
  | 122 => ⟨S1280, .f32⟩
  | 123 => ⟨S1x1280, .f32⟩
  | 124 => ⟨S50000x1280, .f32⟩
  | 125 => ⟨S50000x1280, .f32⟩
  | 126 => ⟨S_, .f32⟩
  | 127 => ⟨S1280, .f32⟩
  | _ => ⟨S50000x128, .f32⟩

abbrev hbmTy0_1 (i : Nat) : BufTy := match i % 128 with
  | 0 => ⟨S1280, .f32⟩
  | 1 => ⟨S1280, .f32⟩
  | 2 => ⟨S1x1280, .f32⟩
  | 3 => ⟨S50000x1280, .f32⟩
  | 4 => ⟨S50000x1280, .f32⟩
  | 5 => ⟨S1x1280, .f32⟩
  | 6 => ⟨S50000x1280, .f32⟩
  | 7 => ⟨S50000x1280, .f32⟩
  | 8 => ⟨S1x1280, .f32⟩
  | 9 => ⟨S50000x1280, .f32⟩
  | 10 => ⟨S50000x1280, .f32⟩
  | 11 => ⟨S50000x10x128, .f32⟩
  | 12 => ⟨S_, .f32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S50000x128, .f32⟩
  | 28 => ⟨S50000x128, .i1⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S50000x10, .f32⟩
  | 42 => ⟨S1x10, .f32⟩
  | 43 => ⟨S50000x10, .f32⟩
  | 44 => ⟨S50000x10, .f32⟩
  | 45 => ⟨S_, .f32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x10, .f32⟩
  | 52 => ⟨S50000x10, .f32⟩
  | 53 => ⟨S50000x10, .f32⟩
  | 54 => ⟨S_, .f32⟩
  | 55 => ⟨S50000, .f32⟩
  | 56 => ⟨S50000x1, .f32⟩
  | 57 => ⟨S50000x10, .f32⟩
  | 58 => ⟨S50000x10, .f32⟩
  | 59 => ⟨S50000x10x1, .f32⟩
  | 60 => ⟨S50000x1x128, .f32⟩
  | 61 => ⟨S50000x10x128, .f32⟩
  | 62 => ⟨S50000x10x128, .f32⟩
  | 63 => ⟨S50000x10x128, .f32⟩
  | 64 => ⟨S50000x1280, .f32⟩
  | 65 => ⟨S_, .f32⟩
  | 66 => ⟨S1280, .f32⟩
  | 67 => ⟨S_, .f32⟩
  | 68 => ⟨S1280, .f32⟩
  | 69 => ⟨S1280, .f32⟩
  | 70 => ⟨S_, .i32⟩
  | 71 => ⟨S_, .f32⟩
  | 72 => ⟨S1280, .f32⟩
  | 73 => ⟨S1x1280, .f32⟩
  | 74 => ⟨S_, .f32⟩
  | 75 => ⟨S1x1280, .f32⟩
  | 76 => ⟨S1x1280, .f32⟩
  | 77 => ⟨S50000x1280, .f32⟩
  | 78 => ⟨S50000x1280, .f32⟩
  | 79 => ⟨S50000x1280, .f32⟩
  | 80 => ⟨S_, .f32⟩
  | 81 => ⟨S_, .f32⟩
  | 82 => ⟨S_, .f32⟩
  | 83 => ⟨S_, .f32⟩
  | 84 => ⟨S1280, .f32⟩
  | 85 => ⟨S1280, .f32⟩
  | 86 => ⟨S1280, .f32⟩
  | 87 => ⟨S_, .f32⟩
  | 88 => ⟨S_, .i1⟩
  | 89 => ⟨S_, .f32⟩
  | 90 => ⟨S_, .f32⟩
  | 91 => ⟨S1280, .f32⟩
  | 92 => ⟨S1280, .f32⟩
  | 93 => ⟨S1x1280, .f32⟩
  | 94 => ⟨S50000x1280, .f32⟩
  | 95 => ⟨S50000x1280, .f32⟩
  | 96 => ⟨S_, .f32⟩
  | 97 => ⟨S1280, .f32⟩
  | 98 => ⟨S1280, .f32⟩
  | 99 => ⟨S1280, .f32⟩
  | 100 => ⟨S1x1280, .f32⟩
  | 101 => ⟨S50000x1280, .f32⟩
  | 102 => ⟨S50000x1280, .f32⟩
  | 103 => ⟨S1x1280, .f32⟩
  | 104 => ⟨S50000x1280, .f32⟩
  | 105 => ⟨S50000x1280, .f32⟩
  | 106 => ⟨S1x1280, .f32⟩
  | 107 => ⟨S50000x1280, .f32⟩
  | 108 => ⟨S50000x1280, .f32⟩
  | 109 => ⟨S50000x10x128, .f32⟩
  | 110 => ⟨S_, .f32⟩
  | 111 => ⟨S50000x128, .f32⟩
  | 112 => ⟨S_, .f32⟩
  | 113 => ⟨S50000x128, .f32⟩
  | 114 => ⟨S50000x128, .f32⟩
  | 115 => ⟨S50000x128, .f32⟩
  | 116 => ⟨S50000x128, .f32⟩
  | 117 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst_0 : Ref sig .tc := ⟨.hbm, 75, rfl⟩
abbrev main_v26 : Ref sig .tc := ⟨.hbm, 76, rfl⟩
abbrev main_cst_1 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_2 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_3 : Ref sig .tc := ⟨.hbm, 95, rfl⟩
abbrev main_v43 : Ref sig .tc := ⟨.hbm, 96, rfl⟩
abbrev main_cst_4 : Ref sig .tc := ⟨.hbm, 97, rfl⟩
abbrev main_v44 : Ref sig .tc := ⟨.hbm, 98, rfl⟩
abbrev main_v45 : Ref sig .tc := ⟨.hbm, 99, rfl⟩
abbrev main_c : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_cst_2 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_cst_3 : Ref sig .tc := ⟨.hbm, 117, rfl⟩
abbrev main_call2_v12 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_cst_5 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_cst_6 : Ref sig .tc := ⟨.hbm, 140, rfl⟩
abbrev main_v63 : Ref sig .tc := ⟨.hbm, 141, rfl⟩
abbrev main_cst_7 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_cst_8 : Ref sig .tc := ⟨.hbm, 173, rfl⟩
abbrev main_v81 : Ref sig .tc := ⟨.hbm, 174, rfl⟩
abbrev main_cst_9 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_cst_10 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_cst_11 : Ref sig .tc := ⟨.hbm, 193, rfl⟩
abbrev main_v98 : Ref sig .tc := ⟨.hbm, 194, rfl⟩
abbrev main_cst_12 : Ref sig .tc := ⟨.hbm, 195, rfl⟩
abbrev main_v99 : Ref sig .tc := ⟨.hbm, 196, rfl⟩
abbrev main_v100 : Ref sig .tc := ⟨.hbm, 197, rfl⟩
abbrev main_c_13 : Ref sig .tc := ⟨.hbm, 198, rfl⟩
abbrev main_call4_cst : Ref sig .tc := ⟨.hbm, 199, rfl⟩
abbrev main_call4_v0 : Ref sig .tc := ⟨.hbm, 200, rfl⟩
abbrev main_call4_v1 : Ref sig .tc := ⟨.hbm, 201, rfl⟩
abbrev main_call4_cst_0 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_v6 : Ref sig .tc := ⟨.hbm, 207, rfl⟩
abbrev main_call4_v7 : Ref sig .tc := ⟨.hbm, 208, rfl⟩
abbrev main_call4_cst_1 : Ref sig .tc := ⟨.hbm, 209, rfl⟩
abbrev main_call4_v8 : Ref sig .tc := ⟨.hbm, 210, rfl⟩
abbrev main_call4_cst_2 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_call4_cst_3 : Ref sig .tc := ⟨.hbm, 215, rfl⟩
abbrev main_call4_v12 : Ref sig .tc := ⟨.hbm, 216, rfl⟩
abbrev main_call4_cst_4 : Ref sig .tc := ⟨.hbm, 217, rfl⟩
abbrev main_call4_call0_v0 : Ref sig .tc := ⟨.hbm, 218, rfl⟩
abbrev main_call4_call0_v1 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_cst_14 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_cst_15 : Ref sig .tc := ⟨.hbm, 238, rfl⟩
abbrev main_v118 : Ref sig .tc := ⟨.hbm, 239, rfl⟩
abbrev main_cst_16 : Ref sig .tc := ⟨.hbm, 240, rfl⟩
abbrev main_v119 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_v123 : Ref sig .tc := ⟨.hbm, 245, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S1x64_S1x50000x64_0_2 : S1x64.BroadcastsInDim S1x50000x64 (![0, 2] : Fin 2 → Fin S1x50000x64.rank)
  shapeCasts_S1x50000x64_S50000x64 : S1x50000x64.ShapeCasts S50000x64
  concatenates_S50000x128_S50000x128_S50000x64_S50000x320_d1 : Shape.Concatenates [S50000x128, S50000x128, S50000x64] S50000x320 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  bcast_S50000x10_S50000x10x1_0_1 : S50000x10.BroadcastsInDim S50000x10x1 (![0, 1] : Fin 2 → Fin S50000x10x1.rank)
  bcast_S50000x128_S50000x1x128_0_2 : S50000x128.BroadcastsInDim S50000x1x128 (![0, 2] : Fin 2 → Fin S50000x1x128.rank)
  bcast_S50000x10x1_S50000x10x128_0_1_2 : S50000x10x1.BroadcastsInDim S50000x10x128 (![0, 1, 2] : Fin 3 → Fin S50000x10x128.rank)
  bcast_S50000x1x128_S50000x10x128_0_1_2 : S50000x1x128.BroadcastsInDim S50000x10x128 (![0, 1, 2] : Fin 3 → Fin S50000x10x128.rank)
  shapeCasts_S50000x10x128_S50000x1280 : S50000x10x128.ShapeCasts S50000x1280
  reducesTo_S50000x1280_S1280_d0 : S50000x1280.ReducesTo [0] S1280
  bcast_S_S1280 : S_.BroadcastsInDim S1280 (![] : Fin 0 → Fin S1280.rank)
  bcast_S1280_S1x1280_1 : S1280.BroadcastsInDim S1x1280 (![1] : Fin 1 → Fin S1x1280.rank)
  bcast_S_S1x1280 : S_.BroadcastsInDim S1x1280 (![] : Fin 0 → Fin S1x1280.rank)
  bcast_S1x1280_S50000x1280_0_1 : S1x1280.BroadcastsInDim S50000x1280 (![0, 1] : Fin 2 → Fin S50000x1280.rank)
  shapeCasts_S50000x1280_S50000x10x128 : S50000x1280.ShapeCasts S50000x10x128
  reducesTo_S50000x10x128_S50000x128_d1 : S50000x10x128.ReducesTo [1] S50000x128
  scatter_S50000x128_S800000x1_S800000x128_1_0_0_1_wf : ScatterDims.WF S50000x128 S800000x1 S800000x128 [1] [0] [0] 1
  dot_S50000x320_S320x128_S50000x128_1_0_0_1_n_n_wf : DotDims.WF S50000x320 S320x128 S50000x128 [1] [0] [0] [1] [] []
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x320_S320x128_S50000x128_1_0_0_1_n_n : DotDims S50000x320 S320x128 S50000x128 where
  lhsContracting := [1]
  rhsContracting := [0]
  lhsNonContracting := [0]
  rhsNonContracting := [1]
  lhsBatch := []
  rhsBatch := []
  wf := dot_S50000x320_S320x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.RefOps.lean ====
import proofs.«158783_j47974784696399_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- The combine layer: the segment sum, the concatenation, the dense layer and its softplus (27 operations). -/
abbrev opsC : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.nullary main_cst (constant S_ .f32 0x00000000#32),
    StableHlo.unary main_cst main_v2 (broadcastInDim S50000x128 ![] bcast_S_S50000x128 : (⟨S_, .f32⟩ : BufTy).Contents (Elt F) → (⟨S50000x128, .f32⟩ : BufTy).Contents (Elt F)),
    StableHlo.unary main_v1 main_v3 (broadcastInDim S800000x1 ![0] bcast_S800000_S800000x1_0 : (⟨S800000, .i32⟩ : BufTy).Contents (Elt F) → (⟨S800000x1, .i32⟩ : BufTy).Contents (Elt F)),
    StableHlo.ternary main_v2 main_v3 main_arg2 main_v4 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v5 (broadcastInDim S1x50000x64 ![0, 2] bcast_S1x64_S1x50000x64_0_2 : (⟨S1x64, .f32⟩ : BufTy).Contents (Elt F) → (⟨S1x50000x64, .f32⟩ : BufTy).Contents (Elt F)),
    StableHlo.reshape main_v5 main_v6 rfl shapeCasts_S1x50000x64_S50000x64,
    StableHlo.nary ![main_arg0, main_v4, main_v6] main_v7 (fun u => concatenate S50000x320 1 [⟨S50000x128, u 0⟩, ⟨S50000x128, u 1⟩, ⟨S50000x64, u 2⟩] concatenates_S50000x128_S50000x128_S50000x64_S50000x320_d1),
    StableHlo.binary main_v7 main_arg4 main_v8 ((fun l r => Host.dotGeneral dot_S50000x320_S320x128_S50000x128_1_0_0_1_n_n none l r) : (⟨S50000x320, .f32⟩ : BufTy).Contents (Elt F) → (⟨S320x128, .f32⟩ : BufTy).Contents (Elt F) → (⟨S50000x128, .f32⟩ : BufTy).Contents (Elt F)),
    StableHlo.unary main_arg5 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S50000x128 ![0, 1] bcast_S1x128_S50000x128_0_1 : (⟨S1x128, .f32⟩ : BufTy).Contents (Elt F) → (⟨S50000x128, .f32⟩ : BufTy).Contents (Elt F)),
    StableHlo.binary main_v8 main_v10 main_v11 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (StableHlo.TRef.of main_v11) main_call0.v0 main_call0.v1 maximumf,
    StableHlo.TRef.unary main_call0.cst main_call0.v2 (broadcastInDim S50000x128 ![] bcast_S_S50000x128),
    StableHlo.TRef.binary (StableHlo.TRef.of main_v11) main_call0.v2 main_call0.v3 subf,
    StableHlo.TRef.binary main_call0.v3 main_call0.v3 main_call0.v4 (cmpf .une),
    StableHlo.TRef.unary main_call0.cst main_call0.v5 (broadcastInDim S50000x128 ![] bcast_S_S50000x128),
    StableHlo.TRef.binary (StableHlo.TRef.of main_v11) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select ]

/-- The first residual block (98 operations). -/
abbrev opsA : List (HloOp τ sig (Elt F)) :=
  [ StableHlo.binary main_v12 main_arg6 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S50000x128 ![0, 1] bcast_S1x128_S50000x128_0_1 : (⟨S1x128, .f32⟩ : BufTy).Contents (Elt F) → (⟨S50000x128, .f32⟩ : BufTy).Contents (Elt F)),
    StableHlo.binary main_v13 main_v15 main_v16 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (StableHlo.TRef.of main_v16) main_call1.v0 main_call1.v1 maximumf,
    StableHlo.TRef.unary main_call1.cst main_call1.v2 (broadcastInDim S50000x128 ![] bcast_S_S50000x128),
    StableHlo.TRef.binary (StableHlo.TRef.of main_v16) main_call1.v2 main_call1.v3 subf,
    StableHlo.TRef.binary main_call1.v3 main_call1.v3 main_call1.v4 (cmpf .une),
    StableHlo.TRef.unary main_call1.cst main_call1.v5 (broadcastInDim S50000x128 ![] bcast_S_S50000x128),
    StableHlo.TRef.binary (StableHlo.TRef.of main_v16) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select,
    StableHlo.binary main_v17 main_arg8 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v20 main_v21 (addf : (⟨S50000x128, .f32⟩ : BufTy).Contents (Elt F) → (⟨S50000x128, .f32⟩ : BufTy).Contents (Elt F) → (⟨S50000x128, .f32⟩ : BufTy).Contents (Elt F)),
    StableHlo.binary main_v21 main_arg10 main_v22 ((fun l r => Host.dotGeneral dot_S50000x128_S128x10_S50000x10_1_0_0_1_n_n none l r) : (⟨S50000x128, .f32⟩ : BufTy).Contents (Elt F) → (⟨S128x10, .f32⟩ : BufTy).Contents (Elt F) → (⟨S50000x10, .f32⟩ : BufTy).Contents (Elt F)),
    StableHlo.unary main_arg11 main_v23 (broadcastInDim S1x10 ![1] bcast_S10_S1x10_1 : (⟨S10, .f32⟩ : BufTy).Contents (Elt F) → (⟨S1x10, .f32⟩ : BufTy).Contents (Elt F)),
    StableHlo.unary main_v23 main_v24 (broadcastInDim S50000x10 ![0, 1] bcast_S1x10_S50000x10_0_1 : (⟨S1x10, .f32⟩ : BufTy).Contents (Elt F) → (⟨S50000x10, .f32⟩ : BufTy).Contents (Elt F)),
    StableHlo.binary main_v22 main_v24 main_v25 (addf : (⟨S50000x10, .f32⟩ : BufTy).Contents (Elt F) → (⟨S50000x10, .f32⟩ : BufTy).Contents (Elt F) → (⟨S50000x10, .f32⟩ : BufTy).Contents (Elt F)),
    StableHlo.nullary main_cst_0 (constant S_ .f32 0xFF800000#32),
    StableHlo.binary main_v25 main_cst_0 main_v26 ((fun x v => Host.reduce FloatOps.maximumf x v reducesTo_S50000x10_S50000_d1 h_S_) : (⟨S50000x10, .f32⟩ : BufTy).Contents (Elt F) → (⟨S_, .f32⟩ : BufTy).Contents (Elt F) → (⟨S50000, .f32⟩ : BufTy).Contents (Elt F)),
    StableHlo.nullary main_cst_1 (constant S_ .f32 0xFF800000#32),
    StableHlo.unary main_cst_1 main_v27 (broadcastInDim S50000 ![] bcast_S_S50000 : (⟨S_, .f32⟩ : BufTy).Contents (Elt F) → (⟨S50000, .f32⟩ : BufTy).Contents (Elt F)),
    StableHlo.binary main_v27 main_v26 main_v28 (maximumf : (⟨S50000, .f32⟩ : BufTy).Contents (Elt F) → (⟨S50000, .f32⟩ : BufTy).Contents (Elt F) → (⟨S50000, .f32⟩ : BufTy).Contents (Elt F)),
    StableHlo.unary main_v28 main_v29 (broadcastInDim S50000x1 ![0] bcast_S50000_S50000x1_0 : (⟨S50000, .f32⟩ : BufTy).Contents (Elt F) → (⟨S50000x1, .f32⟩ : BufTy).Contents (Elt F)),
    StableHlo.unary main_v29 main_v30 (broadcastInDim S50000x10 ![0, 1] bcast_S50000x1_S50000x10_0_1 : (⟨S50000x1, .f32⟩ : BufTy).Contents (Elt F) → (⟨S50000x10, .f32⟩ : BufTy).Contents (Elt F)),
    StableHlo.binary main_v25 main_v30 main_v31 (subf : (⟨S50000x10, .f32⟩ : BufTy).Contents (Elt F) → (⟨S50000x10, .f32⟩ : BufTy).Contents (Elt F) → (⟨S50000x10, .f32⟩ : BufTy).Contents (Elt F)),
    StableHlo.unary main_v31 main_v32 (Host.exp : (⟨S50000x10, .f32⟩ : BufTy).Contents (Elt F) → (⟨S50000x10, .f32⟩ : BufTy).Contents (Elt F)),
    StableHlo.nullary main_cst_2 (constant S_ .f32 0x00000000#32),
    StableHlo.binary main_v32 main_cst_2 main_v33 ((fun x v => Host.reduceAdd x v reducesTo_S50000x10_S50000_d1 h_S_) : (⟨S50000x10, .f32⟩ : BufTy).Contents (Elt F) → (⟨S_, .f32⟩ : BufTy).Contents (Elt F) → (⟨S50000, .f32⟩ : BufTy).Contents (Elt F)),
    StableHlo.unary main_v33 main_v34 (broadcastInDim S50000x1 ![0] bcast_S50000_S50000x1_0 : (⟨S50000, .f32⟩ : BufTy).Contents (Elt F) → (⟨S50000x1, .f32⟩ : BufTy).Contents (Elt F)),
    StableHlo.unary main_v34 main_v35 (broadcastInDim S50000x10 ![0, 1] bcast_S50000x1_S50000x10_0_1 : (⟨S50000x1, .f32⟩ : BufTy).Contents (Elt F) → (⟨S50000x10, .f32⟩ : BufTy).Contents (Elt F)),
    StableHlo.binary main_v32 main_v35 main_v36 (Host.divf : (⟨S50000x10, .f32⟩ : BufTy).Contents (Elt F) → (⟨S50000x10, .f32⟩ : BufTy).Contents (Elt F) → (⟨S50000x10, .f32⟩ : BufTy).Contents (Elt F)),
    StableHlo.unary main_v36 main_v37 (broadcastInDim S50000x10x1 ![0, 1] bcast_S50000x10_S50000x10x1_0_1 : (⟨S50000x10, .f32⟩ : BufTy).Contents (Elt F) → (⟨S50000x10x1, .f32⟩ : BufTy).Contents (Elt F)),
    StableHlo.unary main_v21 main_v38 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v37 main_v39 (broadcastInDim S50000x10x128 ![0, 1, 2] bcast_S50000x10x1_S50000x10x128_0_1_2 : (⟨S50000x10x1, .f32⟩ : BufTy).Contents (Elt F) → (⟨S50000x10x128, .f32⟩ : BufTy).Contents (Elt F)),
    StableHlo.unary main_v38 main_v40 (broadcastInDim S50000x10x128 ![0, 1, 2] bcast_S50000x1x128_S50000x10x128_0_1_2 : (⟨S50000x1x128, .f32⟩ : BufTy).Contents (Elt F) → (⟨S50000x10x128, .f32⟩ : BufTy).Contents (Elt F)),
    StableHlo.binary main_v39 main_v40 main_v41 (mulf : (⟨S50000x10x128, .f32⟩ : BufTy).Contents (Elt F) → (⟨S50000x10x128, .f32⟩ : BufTy).Contents (Elt F) → (⟨S50000x10x128, .f32⟩ : BufTy).Contents (Elt F)),
    StableHlo.reshape main_v41 main_v42 rfl shapeCasts_S50000x10x128_S50000x1280,
    StableHlo.nullary main_cst_3 (constant S_ .f32 0x00000000#32),
    StableHlo.binary main_v42 main_cst_3 main_v43 ((fun x v => Host.reduceAdd x v reducesTo_S50000x1280_S1280_d0 h_S_) : (⟨S50000x1280, .f32⟩ : BufTy).Contents (Elt F) → (⟨S_, .f32⟩ : BufTy).Contents (Elt F) → (⟨S1280, .f32⟩ : BufTy).Contents (Elt F)),
    StableHlo.nullary main_cst_4 (constant S_ .f32 0x47435000#32),
    StableHlo.unary main_cst_4 main_v44 (broadcastInDim S1280 ![] bcast_S_S1280 : (⟨S_, .f32⟩ : BufTy).Contents (Elt F) → (⟨S1280, .f32⟩ : BufTy).Contents (Elt F)),
    StableHlo.binary main_v43 main_v44 main_v45 (Host.divf : (⟨S1280, .f32⟩ : BufTy).Contents (Elt F) → (⟨S1280, .f32⟩ : BufTy).Contents (Elt F) → (⟨S1280, .f32⟩ : BufTy).Contents (Elt F)),
    StableHlo.nullary main_c (constantI S_ 32 0#32),
    StableHlo.TRef.nullary main_call2.cst (constant S_ .f32 0x00000000#32),
    StableHlo.TRef.binary (StableHlo.TRef.of main_v42) main_call2.cst main_call2.v0 (fun x v => Host.reduceAdd x v reducesTo_S50000x1280_S1280_d0 h_S_),
    StableHlo.TRef.unary main_call2.v0 main_call2.v1 (broadcastInDim S1x1280 ![1] bcast_S1280_S1x1280_1),
    StableHlo.TRef.nullary main_call2.cst_0 (constant S_ .f32 0x47435000#32),
    StableHlo.TRef.unary main_call2.cst_0 main_call2.v2 (broadcastInDim S1x1280 ![] bcast_S_S1x1280),
    StableHlo.TRef.binary main_call2.v1 main_call2.v2 main_call2.v3 Host.divf,
    StableHlo.TRef.unary main_call2.v3 main_call2.v4 (broadcastInDim S50000x1280 ![0, 1] bcast_S1x1280_S50000x1280_0_1),
    StableHlo.TRef.binary (StableHlo.TRef.of main_v42) main_call2.v4 main_call2.v5 subf,
    StableHlo.TRef.binary main_call2.v5 main_call2.v5 main_call2.v6 mulf,
    StableHlo.TRef.unary (StableHlo.TRef.of main_c) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x1280_S1280_d0 h_S_),
    StableHlo.TRef.unary main_call2.v8 main_call2.v10 (broadcastInDim S1280 ![] bcast_S_S1280),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1280 ![] bcast_S_S1280),
    StableHlo.TRef.ternary main_call2.v12 main_call2.v11 main_call2.call0.v1 main_call2.call0.v2 (fun p a b => select (broadcastInDim S1280 ![] bcast_S_S1280 p) a b),
    StableHlo.unary main_v45 main_v47 (broadcastInDim S1x1280 ![1] bcast_S1280_S1x1280_1 : (⟨S1280, .f32⟩ : BufTy).Contents (Elt F) → (⟨S1x1280, .f32⟩ : BufTy).Contents (Elt F)),
    StableHlo.unary main_v47 main_v48 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v42 main_v48 main_v49 (subf : (⟨S50000x1280, .f32⟩ : BufTy).Contents (Elt F) → (⟨S50000x1280, .f32⟩ : BufTy).Contents (Elt F) → (⟨S50000x1280, .f32⟩ : BufTy).Contents (Elt F)),
    StableHlo.nullary main_cst_5 (constant S_ .f32 0x3727C5AC#32),
    StableHlo.unary main_cst_5 main_v50 (broadcastInDim S1280 ![] bcast_S_S1280 : (⟨S_, .f32⟩ : BufTy).Contents (Elt F) → (⟨S1280, .f32⟩ : BufTy).Contents (Elt F)),
    StableHlo.binary main_v46 main_v50 main_v51 (addf : (⟨S1280, .f32⟩ : BufTy).Contents (Elt F) → (⟨S1280, .f32⟩ : BufTy).Contents (Elt F) → (⟨S1280, .f32⟩ : BufTy).Contents (Elt F)),
    StableHlo.unary main_v51 main_v52 (Host.rsqrt : (⟨S1280, .f32⟩ : BufTy).Contents (Elt F) → (⟨S1280, .f32⟩ : BufTy).Contents (Elt F)),
    StableHlo.unary main_v52 main_v53 (broadcastInDim S1x1280 ![1] bcast_S1280_S1x1280_1 : (⟨S1280, .f32⟩ : BufTy).Contents (Elt F) → (⟨S1x1280, .f32⟩ : BufTy).Contents (Elt F)),
    StableHlo.unary main_v53 main_v54 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v49 main_v54 main_v55 (mulf : (⟨S50000x1280, .f32⟩ : BufTy).Contents (Elt F) → (⟨S50000x1280, .f32⟩ : BufTy).Contents (Elt F) → (⟨S50000x1280, .f32⟩ : BufTy).Contents (Elt F)),
    StableHlo.unary main_arg12 main_v56 (broadcastInDim S1x1280 ![1] bcast_S1280_S1x1280_1 : (⟨S1280, .f32⟩ : BufTy).Contents (Elt F) → (⟨S1x1280, .f32⟩ : BufTy).Contents (Elt F)),
    StableHlo.unary main_v56 main_v57 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v55 main_v57 main_v58 (mulf : (⟨S50000x1280, .f32⟩ : BufTy).Contents (Elt F) → (⟨S50000x1280, .f32⟩ : BufTy).Contents (Elt F) → (⟨S50000x1280, .f32⟩ : BufTy).Contents (Elt F)),
    StableHlo.unary main_arg13 main_v59 (broadcastInDim S1x1280 ![1] bcast_S1280_S1x1280_1 : (⟨S1280, .f32⟩ : BufTy).Contents (Elt F) → (⟨S1x1280, .f32⟩ : BufTy).Contents (Elt F)),
    StableHlo.unary main_v59 main_v60 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v58 main_v60 main_v61 (addf : (⟨S50000x1280, .f32⟩ : BufTy).Contents (Elt F) → (⟨S50000x1280, .f32⟩ : BufTy).Contents (Elt F) → (⟨S50000x1280, .f32⟩ : BufTy).Contents (Elt F)),
    StableHlo.reshape main_v61 main_v62 rfl shapeCasts_S50000x1280_S50000x10x128,
    StableHlo.nullary main_cst_6 (constant S_ .f32 0x00000000#32),
    StableHlo.binary main_v62 main_cst_6 main_v63 ((fun x v => Host.reduceAdd x v reducesTo_S50000x10x128_S50000x128_d1 h_S_) : (⟨S50000x10x128, .f32⟩ : BufTy).Contents (Elt F) → (⟨S_, .f32⟩ : BufTy).Contents (Elt F) → (⟨S50000x128, .f32⟩ : BufTy).Contents (Elt F)),
    StableHlo.nullary main_cst_7 (constant S_ .f32 0x3C23D70A#32),
    StableHlo.unary main_cst_7 main_v64 (broadcastInDim S50000x128 ![] bcast_S_S50000x128 : (⟨S_, .f32⟩ : BufTy).Contents (Elt F) → (⟨S50000x128, .f32⟩ : BufTy).Contents (Elt F)),
    StableHlo.binary main_v64 main_v63 main_v65 (mulf : (⟨S50000x128, .f32⟩ : BufTy).Contents (Elt F) → (⟨S50000x128, .f32⟩ : BufTy).Contents (Elt F) → (⟨S50000x128, .f32⟩ : BufTy).Contents (Elt F)),
    StableHlo.binary main_v21 main_v65 main_v66 (addf : (⟨S50000x128, .f32⟩ : BufTy).Contents (Elt F) → (⟨S50000x128, .f32⟩ : BufTy).Contents (Elt F) → (⟨S50000x128, .f32⟩ : BufTy).Contents (Elt F)),
    StableHlo.binary main_v12 main_v66 main_v67 (addf : (⟨S50000x128, .f32⟩ : BufTy).Contents (Elt F) → (⟨S50000x128, .f32⟩ : BufTy).Contents (Elt F) → (⟨S50000x128, .f32⟩ : BufTy).Contents (Elt F)) ]

/-- The second residual block (98 operations). -/
abbrev opsB : List (HloOp τ sig (Elt F)) :=
  [ StableHlo.binary main_v67 main_arg14 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (StableHlo.TRef.of main_v71) main_call3.v0 main_call3.v1 maximumf,
    StableHlo.TRef.unary main_call3.cst main_call3.v2 (broadcastInDim S50000x128 ![] bcast_S_S50000x128),
    StableHlo.TRef.binary (StableHlo.TRef.of main_v71) main_call3.v2 main_call3.v3 subf,
    StableHlo.TRef.binary main_call3.v3 main_call3.v3 main_call3.v4 (cmpf .une),
    StableHlo.TRef.unary main_call3.cst main_call3.v5 (broadcastInDim S50000x128 ![] bcast_S_S50000x128),
    StableHlo.TRef.binary (StableHlo.TRef.of main_v71) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select,
    StableHlo.binary main_v72 main_arg16 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg17 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v75 main_v76 (addf : (⟨S50000x128, .f32⟩ : BufTy).Contents (Elt F) → (⟨S50000x128, .f32⟩ : BufTy).Contents (Elt F) → (⟨S50000x128, .f32⟩ : BufTy).Contents (Elt F)),
    StableHlo.binary main_v76 main_arg18 main_v77 ((fun l r => Host.dotGeneral dot_S50000x128_S128x10_S50000x10_1_0_0_1_n_n none l r) : (⟨S50000x128, .f32⟩ : BufTy).Contents (Elt F) → (⟨S128x10, .f32⟩ : BufTy).Contents (Elt F) → (⟨S50000x10, .f32⟩ : BufTy).Contents (Elt F)),
    StableHlo.unary main_arg19 main_v78 (broadcastInDim S1x10 ![1] bcast_S10_S1x10_1 : (⟨S10, .f32⟩ : BufTy).Contents (Elt F) → (⟨S1x10, .f32⟩ : BufTy).Contents (Elt F)),
    StableHlo.unary main_v78 main_v79 (broadcastInDim S50000x10 ![0, 1] bcast_S1x10_S50000x10_0_1 : (⟨S1x10, .f32⟩ : BufTy).Contents (Elt F) → (⟨S50000x10, .f32⟩ : BufTy).Contents (Elt F)),
    StableHlo.binary main_v77 main_v79 main_v80 (addf : (⟨S50000x10, .f32⟩ : BufTy).Contents (Elt F) → (⟨S50000x10, .f32⟩ : BufTy).Contents (Elt F) → (⟨S50000x10, .f32⟩ : BufTy).Contents (Elt F)),
    StableHlo.nullary main_cst_8 (constant S_ .f32 0xFF800000#32),
    StableHlo.binary main_v80 main_cst_8 main_v81 ((fun x v => Host.reduce FloatOps.maximumf x v reducesTo_S50000x10_S50000_d1 h_S_) : (⟨S50000x10, .f32⟩ : BufTy).Contents (Elt F) → (⟨S_, .f32⟩ : BufTy).Contents (Elt F) → (⟨S50000, .f32⟩ : BufTy).Contents (Elt F)),
    StableHlo.nullary main_cst_9 (constant S_ .f32 0xFF800000#32),
    StableHlo.unary main_cst_9 main_v82 (broadcastInDim S50000 ![] bcast_S_S50000 : (⟨S_, .f32⟩ : BufTy).Contents (Elt F) → (⟨S50000, .f32⟩ : BufTy).Contents (Elt F)),
    StableHlo.binary main_v82 main_v81 main_v83 (maximumf : (⟨S50000, .f32⟩ : BufTy).Contents (Elt F) → (⟨S50000, .f32⟩ : BufTy).Contents (Elt F) → (⟨S50000, .f32⟩ : BufTy).Contents (Elt F)),
    StableHlo.unary main_v83 main_v84 (broadcastInDim S50000x1 ![0] bcast_S50000_S50000x1_0 : (⟨S50000, .f32⟩ : BufTy).Contents (Elt F) → (⟨S50000x1, .f32⟩ : BufTy).Contents (Elt F)),
    StableHlo.unary main_v84 main_v85 (broadcastInDim S50000x10 ![0, 1] bcast_S50000x1_S50000x10_0_1 : (⟨S50000x1, .f32⟩ : BufTy).Contents (Elt F) → (⟨S50000x10, .f32⟩ : BufTy).Contents (Elt F)),
    StableHlo.binary main_v80 main_v85 main_v86 (subf : (⟨S50000x10, .f32⟩ : BufTy).Contents (Elt F) → (⟨S50000x10, .f32⟩ : BufTy).Contents (Elt F) → (⟨S50000x10, .f32⟩ : BufTy).Contents (Elt F)),
    StableHlo.unary main_v86 main_v87 (Host.exp : (⟨S50000x10, .f32⟩ : BufTy).Contents (Elt F) → (⟨S50000x10, .f32⟩ : BufTy).Contents (Elt F)),
    StableHlo.nullary main_cst_10 (constant S_ .f32 0x00000000#32),
    StableHlo.binary main_v87 main_cst_10 main_v88 ((fun x v => Host.reduceAdd x v reducesTo_S50000x10_S50000_d1 h_S_) : (⟨S50000x10, .f32⟩ : BufTy).Contents (Elt F) → (⟨S_, .f32⟩ : BufTy).Contents (Elt F) → (⟨S50000, .f32⟩ : BufTy).Contents (Elt F)),
    StableHlo.unary main_v88 main_v89 (broadcastInDim S50000x1 ![0] bcast_S50000_S50000x1_0 : (⟨S50000, .f32⟩ : BufTy).Contents (Elt F) → (⟨S50000x1, .f32⟩ : BufTy).Contents (Elt F)),
    StableHlo.unary main_v89 main_v90 (broadcastInDim S50000x10 ![0, 1] bcast_S50000x1_S50000x10_0_1 : (⟨S50000x1, .f32⟩ : BufTy).Contents (Elt F) → (⟨S50000x10, .f32⟩ : BufTy).Contents (Elt F)),
    StableHlo.binary main_v87 main_v90 main_v91 (Host.divf : (⟨S50000x10, .f32⟩ : BufTy).Contents (Elt F) → (⟨S50000x10, .f32⟩ : BufTy).Contents (Elt F) → (⟨S50000x10, .f32⟩ : BufTy).Contents (Elt F)),
    StableHlo.unary main_v91 main_v92 (broadcastInDim S50000x10x1 ![0, 1] bcast_S50000x10_S50000x10x1_0_1 : (⟨S50000x10, .f32⟩ : BufTy).Contents (Elt F) → (⟨S50000x10x1, .f32⟩ : BufTy).Contents (Elt F)),
    StableHlo.unary main_v76 main_v93 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v92 main_v94 (broadcastInDim S50000x10x128 ![0, 1, 2] bcast_S50000x10x1_S50000x10x128_0_1_2 : (⟨S50000x10x1, .f32⟩ : BufTy).Contents (Elt F) → (⟨S50000x10x128, .f32⟩ : BufTy).Contents (Elt F)),
    StableHlo.unary main_v93 main_v95 (broadcastInDim S50000x10x128 ![0, 1, 2] bcast_S50000x1x128_S50000x10x128_0_1_2 : (⟨S50000x1x128, .f32⟩ : BufTy).Contents (Elt F) → (⟨S50000x10x128, .f32⟩ : BufTy).Contents (Elt F)),
    StableHlo.binary main_v94 main_v95 main_v96 (mulf : (⟨S50000x10x128, .f32⟩ : BufTy).Contents (Elt F) → (⟨S50000x10x128, .f32⟩ : BufTy).Contents (Elt F) → (⟨S50000x10x128, .f32⟩ : BufTy).Contents (Elt F)),
    StableHlo.reshape main_v96 main_v97 rfl shapeCasts_S50000x10x128_S50000x1280,
    StableHlo.nullary main_cst_11 (constant S_ .f32 0x00000000#32),
    StableHlo.binary main_v97 main_cst_11 main_v98 ((fun x v => Host.reduceAdd x v reducesTo_S50000x1280_S1280_d0 h_S_) : (⟨S50000x1280, .f32⟩ : BufTy).Contents (Elt F) → (⟨S_, .f32⟩ : BufTy).Contents (Elt F) → (⟨S1280, .f32⟩ : BufTy).Contents (Elt F)),
    StableHlo.nullary main_cst_12 (constant S_ .f32 0x47435000#32),
    StableHlo.unary main_cst_12 main_v99 (broadcastInDim S1280 ![] bcast_S_S1280 : (⟨S_, .f32⟩ : BufTy).Contents (Elt F) → (⟨S1280, .f32⟩ : BufTy).Contents (Elt F)),
    StableHlo.binary main_v98 main_v99 main_v100 (Host.divf : (⟨S1280, .f32⟩ : BufTy).Contents (Elt F) → (⟨S1280, .f32⟩ : BufTy).Contents (Elt F) → (⟨S1280, .f32⟩ : BufTy).Contents (Elt F)),
    StableHlo.nullary main_c_13 (constantI S_ 32 0#32),
    StableHlo.TRef.nullary main_call4.cst (constant S_ .f32 0x00000000#32),
    StableHlo.TRef.binary (StableHlo.TRef.of main_v97) main_call4.cst main_call4.v0 (fun x v => Host.reduceAdd x v reducesTo_S50000x1280_S1280_d0 h_S_),
    StableHlo.TRef.unary main_call4.v0 main_call4.v1 (broadcastInDim S1x1280 ![1] bcast_S1280_S1x1280_1),
    StableHlo.TRef.nullary main_call4.cst_0 (constant S_ .f32 0x47435000#32),
    StableHlo.TRef.unary main_call4.cst_0 main_call4.v2 (broadcastInDim S1x1280 ![] bcast_S_S1x1280),
    StableHlo.TRef.binary main_call4.v1 main_call4.v2 main_call4.v3 Host.divf,
    StableHlo.TRef.unary main_call4.v3 main_call4.v4 (broadcastInDim S50000x1280 ![0, 1] bcast_S1x1280_S50000x1280_0_1),
    StableHlo.TRef.binary (StableHlo.TRef.of main_v97) main_call4.v4 main_call4.v5 subf,
    StableHlo.TRef.binary main_call4.v5 main_call4.v5 main_call4.v6 mulf,
    StableHlo.TRef.unary (StableHlo.TRef.of main_c_13) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x1280_S1280_d0 h_S_),
    StableHlo.TRef.unary main_call4.v8 main_call4.v10 (broadcastInDim S1280 ![] bcast_S_S1280),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1280 ![] bcast_S_S1280),
    StableHlo.TRef.ternary main_call4.v12 main_call4.v11 main_call4.call0.v1 main_call4.call0.v2 (fun p a b => select (broadcastInDim S1280 ![] bcast_S_S1280 p) a b),
    StableHlo.unary main_v100 main_v102 (broadcastInDim S1x1280 ![1] bcast_S1280_S1x1280_1 : (⟨S1280, .f32⟩ : BufTy).Contents (Elt F) → (⟨S1x1280, .f32⟩ : BufTy).Contents (Elt F)),
    StableHlo.unary main_v102 main_v103 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v97 main_v103 main_v104 (subf : (⟨S50000x1280, .f32⟩ : BufTy).Contents (Elt F) → (⟨S50000x1280, .f32⟩ : BufTy).Contents (Elt F) → (⟨S50000x1280, .f32⟩ : BufTy).Contents (Elt F)),
    StableHlo.nullary main_cst_14 (constant S_ .f32 0x3727C5AC#32),
    StableHlo.unary main_cst_14 main_v105 (broadcastInDim S1280 ![] bcast_S_S1280 : (⟨S_, .f32⟩ : BufTy).Contents (Elt F) → (⟨S1280, .f32⟩ : BufTy).Contents (Elt F)),
    StableHlo.binary main_v101 main_v105 main_v106 (addf : (⟨S1280, .f32⟩ : BufTy).Contents (Elt F) → (⟨S1280, .f32⟩ : BufTy).Contents (Elt F) → (⟨S1280, .f32⟩ : BufTy).Contents (Elt F)),
    StableHlo.unary main_v106 main_v107 (Host.rsqrt : (⟨S1280, .f32⟩ : BufTy).Contents (Elt F) → (⟨S1280, .f32⟩ : BufTy).Contents (Elt F)),
    StableHlo.unary main_v107 main_v108 (broadcastInDim S1x1280 ![1] bcast_S1280_S1x1280_1 : (⟨S1280, .f32⟩ : BufTy).Contents (Elt F) → (⟨S1x1280, .f32⟩ : BufTy).Contents (Elt F)),
    StableHlo.unary main_v108 main_v109 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v104 main_v109 main_v110 (mulf : (⟨S50000x1280, .f32⟩ : BufTy).Contents (Elt F) → (⟨S50000x1280, .f32⟩ : BufTy).Contents (Elt F) → (⟨S50000x1280, .f32⟩ : BufTy).Contents (Elt F)),
    StableHlo.unary main_arg20 main_v111 (broadcastInDim S1x1280 ![1] bcast_S1280_S1x1280_1 : (⟨S1280, .f32⟩ : BufTy).Contents (Elt F) → (⟨S1x1280, .f32⟩ : BufTy).Contents (Elt F)),
    StableHlo.unary main_v111 main_v112 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v110 main_v112 main_v113 (mulf : (⟨S50000x1280, .f32⟩ : BufTy).Contents (Elt F) → (⟨S50000x1280, .f32⟩ : BufTy).Contents (Elt F) → (⟨S50000x1280, .f32⟩ : BufTy).Contents (Elt F)),
    StableHlo.unary main_arg21 main_v114 (broadcastInDim S1x1280 ![1] bcast_S1280_S1x1280_1 : (⟨S1280, .f32⟩ : BufTy).Contents (Elt F) → (⟨S1x1280, .f32⟩ : BufTy).Contents (Elt F)),
    StableHlo.unary main_v114 main_v115 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v113 main_v115 main_v116 (addf : (⟨S50000x1280, .f32⟩ : BufTy).Contents (Elt F) → (⟨S50000x1280, .f32⟩ : BufTy).Contents (Elt F) → (⟨S50000x1280, .f32⟩ : BufTy).Contents (Elt F)),
    StableHlo.reshape main_v116 main_v117 rfl shapeCasts_S50000x1280_S50000x10x128,
    StableHlo.nullary main_cst_15 (constant S_ .f32 0x00000000#32),
    StableHlo.binary main_v117 main_cst_15 main_v118 ((fun x v => Host.reduceAdd x v reducesTo_S50000x10x128_S50000x128_d1 h_S_) : (⟨S50000x10x128, .f32⟩ : BufTy).Contents (Elt F) → (⟨S_, .f32⟩ : BufTy).Contents (Elt F) → (⟨S50000x128, .f32⟩ : BufTy).Contents (Elt F)),
    StableHlo.nullary main_cst_16 (constant S_ .f32 0x3C23D70A#32),
    StableHlo.unary main_cst_16 main_v119 (broadcastInDim S50000x128 ![] bcast_S_S50000x128 : (⟨S_, .f32⟩ : BufTy).Contents (Elt F) → (⟨S50000x128, .f32⟩ : BufTy).Contents (Elt F)),
    StableHlo.binary main_v119 main_v118 main_v120 (mulf : (⟨S50000x128, .f32⟩ : BufTy).Contents (Elt F) → (⟨S50000x128, .f32⟩ : BufTy).Contents (Elt F) → (⟨S50000x128, .f32⟩ : BufTy).Contents (Elt F)),
    StableHlo.binary main_v76 main_v120 main_v121 (addf : (⟨S50000x128, .f32⟩ : BufTy).Contents (Elt F) → (⟨S50000x128, .f32⟩ : BufTy).Contents (Elt F) → (⟨S50000x128, .f32⟩ : BufTy).Contents (Elt F)),
    StableHlo.binary main_v67 main_v121 main_v122 (addf : (⟨S50000x128, .f32⟩ : BufTy).Contents (Elt F) → (⟨S50000x128, .f32⟩ : BufTy).Contents (Elt F) → (⟨S50000x128, .f32⟩ : BufTy).Contents (Elt F)) ]

/-- The closing addition (1 operation). -/
abbrev opsF : List (HloOp τ sig (Elt F)) :=
  [ StableHlo.binary main_v122 main_v12 main_v123 (addf : (⟨S50000x128, .f32⟩ : BufTy).Contents (Elt F) → (⟨S50000x128, .f32⟩ : BufTy).Contents (Elt F) → (⟨S50000x128, .f32⟩ : BufTy).Contents (Elt F)) ]

/-- @main's operations, in order. -/
abbrev ops : List (HloOp τ sig (Elt F)) := opsC ++ (opsA ++ (opsB ++ opsF))

end Cert.ReferenceIdeal.RefOps

end
-- ==== Proof.RefRun.lean ====
import proofs.«158783_j47974784696399_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
theorem main_eq (c : Dev nD) : main (F := F) c = StableHlo.seq (RefOps.ops (F := F)) := rfl

theorem scopedRefs_eq : (Finset.univ.filter fun b : Ref sig .tc => b.isScoped) = ∅ := by decide
theorem scopedSems_eq : (Finset.univ.filter fun sm : SemLoc sig => sm.isScoped .tc) = ∅ := by decide

theorem ops_sub : (RefOps.ops : List (HloOp τ sig (Elt F))).Forall fun op => op.bufs ⊆ StableHlo.tcRefs τ sig := by
  simp only [RefOps.ops, RefOps.opsC, RefOps.opsA, RefOps.opsB, RefOps.opsF, List.cons_append, List.nil_append, List.Forall,
    nullary_bufs_sub, unary_bufs_sub, binary_bufs_sub, ternary_bufs_sub, reshape_bufs_sub, nary_bufs_sub, and_self]

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after RefOps.ops (StableHlo.launchContents m c) (Proc.devRef .tc b) :=
  StableHlo.run_seq scopedRefs_eq scopedSems_eq defs main (fun _ => RefOps.ops) main_eq (fun _ => ops_sub) m ρ

end Cert.ReferenceIdeal.RefRun

end
-- ==== Proof.RefArgs.lean ====
import proofs.«158783_j47974784696399_1_alg».proof.Proof.RefOps
import Idealize.ShloMosaic.Lib.StableHlo.Run
import Idealize.ShloMosaic.Lib.Pipeline.Frame

noncomputable section

namespace Cert.ReferenceIdeal.RefArgs

open Cert.ReferenceIdeal Cert.ReferenceIdeal.Gen Cert.ReferenceIdeal.RefOps Idealize.ShloMosaic Idealize.ShloMosaic.TcCoe Idealize.SL.Sem

variable {F : FTy → Type} [FloatOps F] (W : Valuation τ sig (Elt F)) {r : Ref sig .tc}

abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

-- An operation writes its own result buffer only, and no result buffer of the list is among the kept ones.
theorem keepC (hr : r ∈ args) :
    StableHlo.after (opsC (F := F)) W (Proc.devRef .tc r) = W (Proc.devRef .tc r) := by
  refine StableHlo.after_of_forall_not_mem _ _ (List.forall_iff_forall_mem.mp ?_)
  simp only [opsC, List.Forall, StableHlo.nullary_writes, StableHlo.unary_writes, StableHlo.binary_writes, StableHlo.ternary_writes,
    StableHlo.quaternary_writes, StableHlo.reshape_writes, StableHlo.nary_writes, Finset.mem_singleton]
  repeat' apply And.intro
  all_goals exact StableHlo.devRef_ne_of_ne (ne_of_mem_of_not_mem hr (by decide))

theorem keepA (hr : r ∈ main_v12 :: args) :
    StableHlo.after (opsA (F := F)) W (Proc.devRef .tc r) = W (Proc.devRef .tc r) := by
  refine StableHlo.after_of_forall_not_mem _ _ (List.forall_iff_forall_mem.mp ?_)
  simp only [opsA, List.Forall, StableHlo.nullary_writes, StableHlo.unary_writes, StableHlo.binary_writes, StableHlo.ternary_writes,
    StableHlo.quaternary_writes, StableHlo.reshape_writes, StableHlo.nary_writes, Finset.mem_singleton]
  repeat' apply And.intro
  all_goals exact StableHlo.devRef_ne_of_ne (ne_of_mem_of_not_mem hr (by decide))

theorem keepB (hr : r ∈ main_v12 :: args) :
    StableHlo.after (opsB (F := F)) W (Proc.devRef .tc r) = W (Proc.devRef .tc r) := by
  refine StableHlo.after_of_forall_not_mem _ _ (List.forall_iff_forall_mem.mp ?_)
  simp only [opsB, List.Forall, StableHlo.nullary_writes, StableHlo.unary_writes, StableHlo.binary_writes, StableHlo.ternary_writes,
    StableHlo.quaternary_writes, StableHlo.reshape_writes, StableHlo.nary_writes, Finset.mem_singleton]
  repeat' apply And.intro
  all_goals exact StableHlo.devRef_ne_of_ne (ne_of_mem_of_not_mem hr (by decide))

theorem keepF (hr : r ∈ args) :
    StableHlo.after (opsF (F := F)) W (Proc.devRef .tc r) = W (Proc.devRef .tc r) := by
  refine StableHlo.after_of_forall_not_mem _ _ (List.forall_iff_forall_mem.mp ?_)
  simp only [opsF, List.Forall, StableHlo.nullary_writes, StableHlo.unary_writes, StableHlo.binary_writes, StableHlo.ternary_writes,
    StableHlo.quaternary_writes, StableHlo.reshape_writes, StableHlo.nary_writes, Finset.mem_singleton]
  repeat' apply And.intro
  all_goals exact StableHlo.devRef_ne_of_ne (ne_of_mem_of_not_mem hr (by decide))

theorem ops_keep (hr : r ∈ args) : StableHlo.after (ops (F := F)) W (Proc.devRef .tc r) = W (Proc.devRef .tc r) := by
  show StableHlo.after (opsC ++ (opsA ++ (opsB ++ opsF))) W _ = _
  rw [StableHlo.after_append, StableHlo.after_append, StableHlo.after_append, keepF _ hr, keepB _ (.tail _ hr),
    keepA _ (.tail _ hr), keepC _ hr]

end Cert.ReferenceIdeal.RefArgs

end
-- ==== Proof.Spec.lean ====
import Idealize.ShloMosaic.PureOps.Ideal

noncomputable section

namespace Cert.Spec

open Idealize.ShloMosaic

abbrev Mat (a b : ℕ) := Fin a → Fin b → EReal

abbrev Row (b : ℕ) := Fin b → EReal

def cntN : EReal := Ideal.ofBits .f32 0x47435000#32

def eps : EReal := Ideal.ofBits .f32 0x3727C5AC#32

def lam : EReal := Ideal.ofBits .f32 0x3C23D70A#32

def sp (x : EReal) : EReal := max x 0 + Ideal.log1p (Ideal.exp (-(max x (-x))))

def mm {a k b : ℕ} (A : Mat a k) (W : Mat k b) : Mat a b := fun n j => ∑ i, A n i * W i j

def dense {a k b : ℕ} (A : Mat a k) (W : Mat k b) (bias : Row b) : Mat a b := fun n j => mm A W n j + bias j

def rows {a b : ℕ} (lo cnt : ℕ) (h : lo + cnt ≤ a) (W : Mat a b) : Mat cnt b :=
  fun k j => W ⟨lo + k.val, by have := k.isLt; omega⟩ j

def rowMax (z : Row 10) : EReal := Finset.univ.sup z

def smax (z : Row 10) (g : Fin 10) : EReal :=
  Ideal.div (Ideal.exp (z g - rowMax z)) (∑ g', Ideal.exp (z g' - rowMax z))

def biasK (bc : Row 128) (g : Row 64) (Wg : Mat 64 128) : Row 128 := fun j => bc j + ∑ k, g k * Wg k j

def combineK {n : ℕ} (x ms : Mat n 128) (Wx Wm : Mat 128 128) (bias : Row 128) : Mat n 128 :=
  fun i j => sp ((mm x Wx i j + mm ms Wm i j) + bias j)

def catRow {n : ℕ} (x ms : Mat n 128) (g : Row 64) : Mat n 320 := fun i k =>
  if h : k.val < 128 then x i ⟨k.val, h⟩
  else if h2 : k.val < 256 then ms i ⟨k.val - 128, by omega⟩
  else g ⟨k.val - 256, by have := k.isLt; omega⟩

def combineR {n : ℕ} (x ms : Mat n 128) (g : Row 64) (Wc : Mat 320 128) (bc : Row 128) : Mat n 128 :=
  fun i j => sp (mm (catRow x ms g) Wc i j + bc j)

structure Params where
  W1 : Mat 128 128
  b1 : Row 128
  W2 : Mat 128 128
  b2 : Row 128
  linW : Mat 128 10
  linb : Row 10
  gamma : Row 1280
  beta : Row 1280

def hid {n : ℕ} (out : Mat n 128) (W1 : Mat 128 128) (b1 : Row 128) (W2 : Mat 128 128) (b2 : Row 128) : Mat n 128 :=
  dense (fun i k => sp (dense out W1 b1 i k)) W2 b2

def gate {n : ℕ} (h : Mat n 128) (linW : Mat 128 10) (linb : Row 10) : Mat n 10 :=
  fun i g => smax (dense h linW linb i) g

def gOf (j : Fin 1280) : Fin 10 := ⟨j.val / 128, by have := j.isLt; omega⟩

def fOf (j : Fin 1280) : Fin 128 := ⟨j.val % 128, Nat.mod_lt _ (by norm_num)⟩

def jOf (g : Fin 10) (f : Fin 128) : Fin 1280 := ⟨g.val * 128 + f.val, by have := g.isLt; have := f.isLt; omega⟩

def feat {n : ℕ} (s : Mat n 10) (h : Mat n 128) : Mat n 1280 := fun i j => s i (gOf j) * h i (fOf j)

def colSum {n : ℕ} (o : Mat n 1280) : Row 1280 := fun j => ∑ i, o i j

def colSumSq {n : ℕ} (o : Mat n 1280) : Row 1280 := fun j => ∑ i, o i j * o i j

def mean (S : Row 1280) : Row 1280 := fun j => Ideal.div (S j) cntN

def varK (S SS : Row 1280) : Row 1280 := fun j => Ideal.div (SS j) cntN - mean S j * mean S j

def varR {n : ℕ} (o : Mat n 1280) : Row 1280 := fun j =>
  Ideal.div (∑ i, (o i j - mean (colSum o) j) * (o i j - mean (colSum o) j)) cntN

def istd (v : Row 1280) : Row 1280 := fun j => Ideal.rsqrt (v j + eps)

def normed {n : ℕ} (o : Mat n 1280) (mu iv gamma beta : Row 1280) : Mat n 1280 :=
  fun i j => (o i j - mu j) * iv j * gamma j + beta j

def groupSum {n : ℕ} (y : Mat n 1280) : Mat n 128 := fun i f => ∑ g : Fin 10, y i (jOf g f)

def applyBlock {n : ℕ} (out h : Mat n 128) (s : Mat n 10) (mu iv gamma beta : Row 1280) : Mat n 128 :=
  fun i f => out i f + (h i f + lam * groupSum (normed (feat s h) mu iv gamma beta) i f)

def blockK {n : ℕ} (P : Params) (out : Mat n 128) : Mat n 128 :=
  let h := hid out P.W1 P.b1 P.W2 P.b2
  let s := gate h P.linW P.linb
  let o := feat s h
  applyBlock out h s (mean (colSum o)) (istd (varK (colSum o) (colSumSq o))) P.gamma P.beta

def blockR {n : ℕ} (P : Params) (out : Mat n 128) : Mat n 128 :=
  let h := hid out P.W1 P.b1 P.W2 P.b2
  let s := gate h P.linW P.linb
  let o := feat s h
  applyBlock out h s (mean (colSum o)) (istd (varR o)) P.gamma P.beta

def resK {n : ℕ} (x ms : Mat n 128) (g : Row 64) (Wc : Mat 320 128) (bc : Row 128) (Pa Pb : Params) : Mat n 128 :=
  let o0 := combineK x ms (rows 0 128 (by norm_num) Wc) (rows 128 128 (by norm_num) Wc)
    (biasK bc g (rows 256 64 (by norm_num) Wc))
  fun i f => blockK Pb (blockK Pa o0) i f + o0 i f

def resR {n : ℕ} (x ms : Mat n 128) (g : Row 64) (Wc : Mat 320 128) (bc : Row 128) (Pa Pb : Params) : Mat n 128 :=
  let o0 := combineR x ms g Wc bc
  fun i f => blockR Pb (blockR Pa o0) i f + o0 i f

def RealM {a b : ℕ} (A : Mat a b) : Prop := ∀ i j, ∃ r : ℝ, A i j = (r : EReal)

def RealV {b : ℕ} (v : Row b) : Prop := ∀ j, ∃ r : ℝ, v j = (r : EReal)

structure Params.Real (P : Params) : Prop where
  W1 : RealM P.W1
  b1 : RealV P.b1
  W2 : RealM P.W2
  b2 : RealV P.b2
  linW : RealM P.linW
  linb : RealV P.linb
  gamma : RealV P.gamma
  beta : RealV P.beta

end Cert.Spec

end
-- ==== Proof.Arr.lean ====
import Idealize.ShloMosaic.Lib.ValueIdx
import proofs.«158783_j47974784696399_1_alg».proof.Proof.Spec

noncomputable section

namespace Cert.Arr

open Idealize.ShloMosaic Idealize.ShloMosaic.ValueIdx

def a2 {a b : ℕ} (X : (⟨2, ![a, b]⟩ : Shape).Idx → EReal) : Cert.Spec.Mat a b := fun i j => X (ix2 i j)

def r1 {b : ℕ} (X : (⟨2, ![1, b]⟩ : Shape).Idx → EReal) : Cert.Spec.Row b := fun j => X (ix2 (0 : Fin 1) j)

def v1 {b : ℕ} (X : (⟨1, ![b]⟩ : Shape).Idx → EReal) : Cert.Spec.Row b := fun j => X (ix1 j)

theorem a2_apply {a b : ℕ} (X : (⟨2, ![a, b]⟩ : Shape).Idx → EReal) (i : Fin a) (j : Fin b) : a2 X i j = X (ix2 i j) := rfl
theorem r1_apply {b : ℕ} (X : (⟨2, ![1, b]⟩ : Shape).Idx → EReal) (j : Fin b) : r1 X j = X (ix2 (0 : Fin 1) j) := rfl
theorem v1_apply {b : ℕ} (X : (⟨1, ![b]⟩ : Shape).Idx → EReal) (j : Fin b) : v1 X j = X (ix1 j) := rfl

end Cert.Arr

end
-- ==== Proof.RefChain.lean ====
import proofs.«158783_j47974784696399_1_alg».proof.Proof.RefOps
import proofs.«158783_j47974784696399_1_alg».proof.Proof.RefArgs
import proofs.«158783_j47974784696399_1_alg».proof.Proof.Spec
import proofs.«158783_j47974784696399_1_alg».proof.Proof.Arr
import Idealize.ShloMosaic.Lib.ValueIdx
import Idealize.ShloMosaic.Lib.StableHlo.Run

noncomputable section

namespace Cert.ReferenceIdeal.RefChain

open Cert.ReferenceIdeal Cert.ReferenceIdeal.Gen Cert.ReferenceIdeal.RefOps Cert.ReferenceIdeal.RefArgs Idealize.ShloMosaic Idealize.ShloMosaic.TcCoe Idealize.ShloMosaic.ValueIdx Idealize.SL.Sem Cert.Arr

variable (W : Valuation τ sig (Elt Ideal))

abbrev PA : Cert.Spec.Params :=
  ⟨a2 (W (Proc.devRef .tc main_arg6)), v1 (W (Proc.devRef .tc main_arg7)), a2 (W (Proc.devRef .tc main_arg8)),
   v1 (W (Proc.devRef .tc main_arg9)), a2 (W (Proc.devRef .tc main_arg10)), v1 (W (Proc.devRef .tc main_arg11)),
   v1 (W (Proc.devRef .tc main_arg12)), v1 (W (Proc.devRef .tc main_arg13))⟩
abbrev PB : Cert.Spec.Params :=
  ⟨a2 (W (Proc.devRef .tc main_arg14)), v1 (W (Proc.devRef .tc main_arg15)), a2 (W (Proc.devRef .tc main_arg16)),
   v1 (W (Proc.devRef .tc main_arg17)), a2 (W (Proc.devRef .tc main_arg18)), v1 (W (Proc.devRef .tc main_arg19)),
   v1 (W (Proc.devRef .tc main_arg20)), v1 (W (Proc.devRef .tc main_arg21))⟩

theorem PA_opsC : PA (StableHlo.after (opsC (F := Ideal)) W) = PA W := by
  unfold PA; congr 2 <;> exact keepC _ (by decide)
theorem PB_opsC : PB (StableHlo.after (opsC (F := Ideal)) W) = PB W := by
  unfold PB; congr 2 <;> exact keepC _ (by decide)
theorem PB_opsA : PB (StableHlo.after (opsA (F := Ideal)) W) = PB W := by
  unfold PB; congr 2 <;> exact keepA _ (by decide)

abbrev msgs : FVec Ideal S50000x128 .f32 :=
  StableHlo.after (opsC (F := Ideal)) W (Proc.devRef .tc main_v4)

-- The four lists in order: the combine layer feeds the first block, that the second, and the last addition adds the combine layer's output again.
theorem result
    (hC : ∀ (W : Valuation τ sig (Elt Ideal)) (n : Fin 50000) (f : Fin 128),
      StableHlo.after (opsC (F := Ideal)) W (Proc.devRef .tc main_v12) (ix2 n f)
        = Cert.Spec.combineR (a2 (W (Proc.devRef .tc main_arg0))) (a2 (msgs W)) (r1 (W (Proc.devRef .tc main_arg3)))
            (a2 (W (Proc.devRef .tc main_arg4))) (v1 (W (Proc.devRef .tc main_arg5))) n f)
    (hA : ∀ (W : Valuation τ sig (Elt Ideal)) (n : Fin 50000) (f : Fin 128),
      StableHlo.after (opsA (F := Ideal)) W (Proc.devRef .tc main_v67) (ix2 n f)
        = Cert.Spec.blockR (PA W) (a2 (W (Proc.devRef .tc main_v12))) n f)
    (hB : ∀ (W : Valuation τ sig (Elt Ideal)) (n : Fin 50000) (f : Fin 128),
      StableHlo.after (opsB (F := Ideal)) W (Proc.devRef .tc main_v122) (ix2 n f)
        = Cert.Spec.blockR (PB W) (a2 (W (Proc.devRef .tc main_v67))) n f)
    (n : Fin 50000) (f : Fin 128) :
    StableHlo.after (ops (F := Ideal)) W (Proc.devRef .tc main_v123) (ix2 n f)
      = Cert.Spec.resR (a2 (W (Proc.devRef .tc main_arg0))) (a2 (msgs W)) (r1 (W (Proc.devRef .tc main_arg3)))
          (a2 (W (Proc.devRef .tc main_arg4))) (v1 (W (Proc.devRef .tc main_arg5))) (PA W) (PB W) n f := by
  have e : StableHlo.after (ops (F := Ideal)) W
      = StableHlo.after opsF (StableHlo.after opsB (StableHlo.after opsA (StableHlo.after opsC W))) := by
    show StableHlo.after (opsC ++ (opsA ++ (opsB ++ opsF))) W = _
    rw [StableHlo.after_append, StableHlo.after_append, StableHlo.after_append]
  have o0 : a2 (StableHlo.after (opsC (F := Ideal)) W (Proc.devRef .tc main_v12))
      = Cert.Spec.combineR (a2 (W (Proc.devRef .tc main_arg0))) (a2 (msgs W)) (r1 (W (Proc.devRef .tc main_arg3)))
          (a2 (W (Proc.devRef .tc main_arg4))) (v1 (W (Proc.devRef .tc main_arg5))) :=
    funext fun i => funext fun j => hC W i j
  have oa : a2 (StableHlo.after (opsA (F := Ideal)) (StableHlo.after (opsC (F := Ideal)) W) (Proc.devRef .tc main_v67))
      = Cert.Spec.blockR (PA W) (Cert.Spec.combineR (a2 (W (Proc.devRef .tc main_arg0))) (a2 (msgs W))
          (r1 (W (Proc.devRef .tc main_arg3))) (a2 (W (Proc.devRef .tc main_arg4))) (v1 (W (Proc.devRef .tc main_arg5)))) := by
    funext i j
    show StableHlo.after (opsA (F := Ideal)) (StableHlo.after (opsC (F := Ideal)) W) (Proc.devRef .tc main_v67) (ix2 i j) = _
    rw [hA, PA_opsC, o0]
  rw [e]
  have key : ∀ (A B C : FVec Ideal S50000x128 .f32), C = addf A B → C (ix2 n f) = A (ix2 n f) + B (ix2 n f) :=
    fun A B C h => by rw [h]; rfl
  refine (key
    (StableHlo.after (opsB (F := Ideal)) (StableHlo.after (opsA (F := Ideal)) (StableHlo.after (opsC (F := Ideal)) W)) (Proc.devRef .tc main_v122))
    (StableHlo.after (opsB (F := Ideal)) (StableHlo.after (opsA (F := Ideal)) (StableHlo.after (opsC (F := Ideal)) W)) (Proc.devRef .tc main_v12))
    _ ?_).trans ?_
  · simp only [opsF]
    after_results
  rw [hB, PB_opsA, PB_opsC, oa, keepB _ (.head _), keepA _ (.head _)]
  have o0' := congrFun (congrFun o0 n) f
  rw [Cert.Arr.a2_apply] at o0'
  rw [o0']
  rfl

end Cert.ReferenceIdeal.RefChain

end
-- ==== Proof.Reals.lean ====
import proofs.«158783_j47974784696399_1_alg».proof.Proof.Spec

noncomputable section

namespace Cert.Spec

open Idealize.ShloMosaic

theorem cntN_eq : cntN = ((50000 : ℝ) : EReal) := by
  simp [cntN, Ideal.ofBits, Ideal.ieee, -EReal.coe_mul]; norm_num

theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

theorem lam_real : ∃ l : ℝ, lam = (l : EReal) := by
  refine ⟨(10737418 : ℝ) * (2 : ℝ) ^ (-30 : ℤ), ?_⟩
  simp [lam, Ideal.ofBits, Ideal.ieee, -EReal.coe_mul]

section Real

variable {x y : EReal} (hx : ∃ r : ℝ, x = (r : EReal)) (hy : ∃ r : ℝ, y = (r : EReal))
include hx hy

theorem add_real : ∃ r : ℝ, x + y = (r : EReal) := by
  obtain ⟨p, rfl⟩ := hx
  obtain ⟨q, rfl⟩ := hy
  exact ⟨p + q, (EReal.coe_add p q).symm⟩

theorem mul_real : ∃ r : ℝ, x * y = (r : EReal) := by
  obtain ⟨p, rfl⟩ := hx
  obtain ⟨q, rfl⟩ := hy
  exact ⟨p * q, (EReal.coe_mul p q).symm⟩

theorem sub_real : ∃ r : ℝ, x - y = (r : EReal) := by
  obtain ⟨p, rfl⟩ := hx
  obtain ⟨q, rfl⟩ := hy
  exact ⟨p - q, (EReal.coe_sub p q).symm⟩

end Real

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

-- a finite sum of reals is real: add the terms one at a time
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact add_real (hf a (Finset.mem_insert_self a s)) (ih fun i hi => hf i (Finset.mem_insert_of_mem hi))

theorem div_real (a b : ℝ) (hb : b ≠ 0) : Ideal.div (a : EReal) (b : EReal) = ((a / b : ℝ) : EReal) := by
  rw [Ideal.div_coe hb, ← EReal.coe_mul, mul_one_div]

theorem rsqrt_real (v : ℝ) (hv : 0 < v) : ∃ s : ℝ, Ideal.rsqrt (v : EReal) = (s : EReal) :=
  ⟨(Real.sqrt v)⁻¹, by rw [Ideal.rsqrt_coe, if_neg (not_lt.mpr hv.le), if_neg hv.ne']⟩

theorem coe_max (a b : ℝ) : max (a : EReal) b = ((max a b : ℝ) : EReal) := (EReal.coe_strictMono.monotone.map_max).symm

-- softplus of a real is real: 1 + e^t is a positive real, so its logarithm is the real logarithm
theorem sp_real {x : EReal} (hx : ∃ r : ℝ, x = (r : EReal)) : ∃ s : ℝ, sp x = (s : EReal) := by
  obtain ⟨r, rfl⟩ := hx
  have hpos : ¬ (1 + Real.exp (-(max r (-r))) ≤ 0) := not_le.mpr (by positivity)
  exact ⟨max r 0 + Real.log (1 + Real.exp (-(max r (-r)))), by
    rw [sp, ← EReal.coe_zero, ← EReal.coe_neg, coe_max, coe_max, ← EReal.coe_neg, Ideal.exp_coe, Ideal.log1p, ← EReal.coe_one,
      ← EReal.coe_add, Ideal.log_coe, if_neg hpos, ← EReal.coe_add]⟩

-- softmax of ten reals is real: the largest logit is one of them, and the denominator is a sum of positive reals
theorem smax_real (z : Row 10) (hz : RealV z) (g : Fin 10) : ∃ s : ℝ, smax z g = (s : EReal) := by
  obtain ⟨i, -, hi⟩ := Finset.exists_mem_eq_sup (Finset.univ : Finset (Fin 10)) Finset.univ_nonempty z
  obtain ⟨M, hM⟩ := hz i
  choose r hr using hz
  have he : ∀ g' : Fin 10, Ideal.exp (z g' - rowMax z) = ((Real.exp (r g' - M) : ℝ) : EReal) := fun g' => by
    rw [rowMax, hi, hM, hr g', ← EReal.coe_sub, Ideal.exp_coe]
  have hden : (∑ g' : Fin 10, Real.exp (r g' - M)) ≠ 0 :=
    (Finset.sum_pos (fun g' _ => Real.exp_pos _) Finset.univ_nonempty).ne'
  refine ⟨Real.exp (r g - M) / ∑ g' : Fin 10, Real.exp (r g' - M), ?_⟩
  rw [smax, he g, Finset.sum_congr rfl (fun g' _ => he g'), ← coe_sum, div_real _ _ hden]

-- the sum of the squared deviations of a real column from its real mean, as a real sum
theorem dev_coe {n : ℕ} {o : Mat n 1280} {j : Fin 1280} {f : Fin n → ℝ} {m : ℝ} (hf : ∀ i, o i j = (f i : EReal))
    (hm : mean (colSum o) j = (m : EReal)) :
    (∑ i, (o i j - mean (colSum o) j) * (o i j - mean (colSum o) j)) = ((∑ i, (f i - m) * (f i - m) : ℝ) : EReal) := by
  rw [coe_sum]
  exact Finset.sum_congr rfl fun i _ => by rw [hm, hf i, ← EReal.coe_sub, ← EReal.coe_mul]

end Cert.Spec

end
-- ==== Proof.RefBlock.lean ====
import proofs.«158783_j47974784696399_1_alg».proof.Proof.RefOps
import proofs.«158783_j47974784696399_1_alg».proof.Proof.Spec
import proofs.«158783_j47974784696399_1_alg».proof.Proof.Arr
import proofs.«158783_j47974784696399_1_alg».proof.Proof.Reals
import Idealize.ShloMosaic.Lib.ValueIdx
import Idealize.ShloMosaic.Lib.IdealHost
import Idealize.ShloMosaic.Lib.StackMember
import Idealize.ShloMosaic.Lib.KernelVsHost
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefBlock

open Cert.ReferenceIdeal Cert.ReferenceIdeal.Gen Idealize.ShloMosaic Idealize.ShloMosaic.TcCoe Idealize.ShloMosaic.ValueIdx Idealize.SL.Sem Cert.Arr

section Layout
variable {α : Type}

theorem val_eq_ite {d : ℕ} (i : Fin d) : i.val = if d = 1 then 0 else i.val := by
  split_ifs with h
  · have := i.isLt; omega
  · rfl

theorem zero_eq_ite (y : ℕ) : (0 : ℕ) = if (1 : ℕ) = 1 then 0 else y := by simp

theorem bcast_vecRow_apply {b : ℕ} (h : (⟨1, ![b]⟩ : Shape).BroadcastsInDim ⟨2, ![1, b]⟩ ![1])
    (x : (⟨1, ![b]⟩ : Shape).Idx → α) (f : Fin b) :
    broadcastInDim ⟨2, ![1, b]⟩ ![1] h x (ix2 (0 : Fin 1) f) = x (ix1 f) := by
  refine broadcastInDim_apply ![1] h x (ix2 (0 : Fin 1) f) (ix1 f) fun a => ?_
  fin_cases a <;> first | exact val_eq_ite _ | exact zero_eq_ite _

theorem bcast_rowDown_apply {m b : ℕ} (h1 : (⟨1, ![b]⟩ : Shape).BroadcastsInDim ⟨2, ![1, b]⟩ ![1])
    (h2 : (⟨2, ![1, b]⟩ : Shape).BroadcastsInDim ⟨2, ![m, b]⟩ ![0, 1]) (x : (⟨1, ![b]⟩ : Shape).Idx → α) (n : Fin m) (f : Fin b) :
    broadcastInDim ⟨2, ![m, b]⟩ ![0, 1] h2 (broadcastInDim ⟨2, ![1, b]⟩ ![1] h1 x) (ix2 n f) = x (ix1 f) := by
  rw [broadcastInDim_oneRow_apply, bcast_vecRow_apply]

theorem bcast_colAcross_apply {m b : ℕ} (h1 : (⟨1, ![m]⟩ : Shape).BroadcastsInDim ⟨2, ![m, 1]⟩ ![0])
    (h2 : (⟨2, ![m, 1]⟩ : Shape).BroadcastsInDim ⟨2, ![m, b]⟩ ![0, 1]) (x : (⟨1, ![m]⟩ : Shape).Idx → α) (n : Fin m) (g : Fin b) :
    broadcastInDim ⟨2, ![m, b]⟩ ![0, 1] h2 (broadcastInDim ⟨2, ![m, 1]⟩ ![0] h1 x) (ix2 n g) = x (ix1 n) := by
  refine (broadcastInDim_apply ![0, 1] h2 _ (ix2 n g) (ix2 n (0 : Fin 1)) fun a => ?_).trans
    (broadcastInDim_apply ![0] h1 x (ix2 n (0 : Fin 1)) (ix1 n) fun a => ?_) <;>
  fin_cases a <;> first | exact val_eq_ite _ | exact zero_eq_ite _

theorem bcast_ab_abc_apply {m g b : ℕ} (h1 : (⟨2, ![m, g]⟩ : Shape).BroadcastsInDim ⟨3, ![m, g, 1]⟩ ![0, 1])
    (h2 : (⟨3, ![m, g, 1]⟩ : Shape).BroadcastsInDim ⟨3, ![m, g, b]⟩ ![0, 1, 2]) (x : (⟨2, ![m, g]⟩ : Shape).Idx → α)
    (n : Fin m) (k : Fin g) (f : Fin b) :
    broadcastInDim ⟨3, ![m, g, b]⟩ ![0, 1, 2] h2 (broadcastInDim ⟨3, ![m, g, 1]⟩ ![0, 1] h1 x) (ix3 n k f) = x (ix2 n k) := by
  refine (broadcastInDim_apply ![0, 1, 2] h2 _ (ix3 n k f) (ix3 n k (0 : Fin 1)) fun a => ?_).trans
    (broadcastInDim_apply ![0, 1] h1 x (ix3 n k (0 : Fin 1)) (ix2 n k) fun a => ?_) <;>
  fin_cases a <;> first | exact val_eq_ite _ | exact zero_eq_ite _

theorem bcast_ac_abc_apply {m g b : ℕ} (h1 : (⟨2, ![m, b]⟩ : Shape).BroadcastsInDim ⟨3, ![m, 1, b]⟩ ![0, 2])
    (h2 : (⟨3, ![m, 1, b]⟩ : Shape).BroadcastsInDim ⟨3, ![m, g, b]⟩ ![0, 1, 2]) (x : (⟨2, ![m, b]⟩ : Shape).Idx → α)
    (n : Fin m) (k : Fin g) (f : Fin b) :
    broadcastInDim ⟨3, ![m, g, b]⟩ ![0, 1, 2] h2 (broadcastInDim ⟨3, ![m, 1, b]⟩ ![0, 2] h1 x) (ix3 n k f) = x (ix2 n f) := by
  refine (broadcastInDim_apply ![0, 1, 2] h2 _ (ix3 n k f) (ix3 n (0 : Fin 1) f) fun a => ?_).trans
    (broadcastInDim_apply ![0, 2] h1 x (ix3 n (0 : Fin 1) f) (ix2 n f) fun a => ?_) <;>
  fin_cases a <;> first | exact val_eq_ite _ | exact zero_eq_ite _

end Layout

theorem lift_axis1_2 {m g : ℕ} (h : (⟨2, ![m, g]⟩ : Shape).Reduces [1] (⟨1, ![m]⟩ : Shape)) (n : Fin m)
    (k : Fin ((⟨2, ![m, g]⟩ : Shape).size 1)) : h.lift (ix1 n) k = ix2 n (⟨k.val, k.isLt⟩ : Fin g) := by
  funext c; apply Fin.ext
  fin_cases c <;> rfl

theorem reduceAdd_axis1_2 {m g : ℕ} {u : Shape} (h' : (⟨2, ![m, g]⟩ : Shape).ReducesTo [1] (⟨1, ![m]⟩ : Shape))
    (h : (⟨2, ![m, g]⟩ : Shape).Reduces [1] (⟨1, ![m]⟩ : Shape)) (hu : 0 < u.numel)
    (x : FVec Ideal ⟨2, ![m, g]⟩ .f32) (init : u.Idx → Ideal .f32) (n : Fin m) :
    Host.reduceAdd x init h' hu (ix1 n) = init (Shape.Idx.first hu) + ∑ k : Fin g, x (ix2 n k) := by
  rw [hostReduceAdd_apply, Ideal.hostReduceAdd_single h' h]
  exact congrArg _ (Finset.sum_congr rfl fun k _ => congrArg x (lift_axis1_2 h n k))

theorem reduceAdd_axis0_2 {m b : ℕ} {u : Shape} (h' : (⟨2, ![m, b]⟩ : Shape).ReducesTo [0] (⟨1, ![b]⟩ : Shape))
    (h : (⟨2, ![m, b]⟩ : Shape).Reduces [0] (⟨1, ![b]⟩ : Shape)) (hu : 0 < u.numel)
    (x : FVec Ideal ⟨2, ![m, b]⟩ .f32) (init : u.Idx → Ideal .f32) (j : Fin b) :
    Host.reduceAdd x init h' hu (ix1 j) = init (Shape.Idx.first hu) + ∑ i : Fin m, x (ix2 i j) := by
  rw [hostReduceAdd_apply, Ideal.hostReduceAdd_single h' h]
  exact congrArg _ (Finset.sum_congr rfl fun k _ => congrArg x (funext fun c => Fin.ext (by fin_cases c <;> rfl)))

theorem reduceAdd_axis1_3 {m g b : ℕ} {u : Shape} (h' : (⟨3, ![m, g, b]⟩ : Shape).ReducesTo [1] (⟨2, ![m, b]⟩ : Shape))
    (h : (⟨3, ![m, g, b]⟩ : Shape).Reduces [1] (⟨2, ![m, b]⟩ : Shape)) (hu : 0 < u.numel)
    (x : FVec Ideal ⟨3, ![m, g, b]⟩ .f32) (init : u.Idx → Ideal .f32) (n : Fin m) (f : Fin b) :
    Host.reduceAdd x init h' hu (ix2 n f) = init (Shape.Idx.first hu) + ∑ k : Fin g, x (ix3 n k f) := by
  rw [hostReduceAdd_apply, Ideal.hostReduceAdd_single h' h]
  exact congrArg _ (Finset.sum_congr rfl fun k _ => congrArg x (funext fun c => Fin.ext (by fin_cases c <;> rfl)))

theorem ofBits_neg_inf : Ideal.ofBits .f32 0xFF800000#32 = (⊥ : EReal) := by simp [Ideal.ofBits, Ideal.ieee]

-- The order is linear, so the fold of `max` from the bottom element over a row is the row's supremum.
theorem reduceMax_axis1_2 {m g : ℕ} {u : Shape} (h' : (⟨2, ![m, g]⟩ : Shape).ReducesTo [1] (⟨1, ![m]⟩ : Shape))
    (h : (⟨2, ![m, g]⟩ : Shape).Reduces [1] (⟨1, ![m]⟩ : Shape)) (hu : 0 < u.numel)
    (x : FVec Ideal ⟨2, ![m, g]⟩ .f32) (init : u.Idx → Ideal .f32) (hi : init (Shape.Idx.first hu) = (⊥ : EReal)) (n : Fin m) :
    Host.reduce FloatOps.maximumf x init h' hu (ix1 n) = Finset.univ.sup fun k : Fin g => x (ix2 n k) := by
  rw [Host.reduce_eq_fold_single FloatOps.maximumf x init h' h hu, hi]
  have hf : (x ∘ h.lift (ix1 n)) = fun k : Fin g => x (ix2 n k) := funext fun k => congrArg x (lift_axis1_2 h n k)
  rw [hf]
  show Finset.fold max (⊥ : EReal) (fun k : Fin g => x (ix2 n k)) Finset.univ = _
  exact le_antisymm
    ((Finset.fold_max_le _).mpr ⟨bot_le, fun k hk => Finset.le_sup (f := fun k : Fin g => x (ix2 n k)) hk⟩)
    (Finset.sup_le fun k hk => (Finset.le_fold_max _).mpr (Or.inr ⟨k, hk, le_rfl⟩))

theorem cntN_pos : (0 : EReal) < Cert.Spec.cntN := by
  rw [Cert.Spec.cntN_eq]
  exact EReal.coe_pos.mpr (by norm_num)

theorem sitofp_zero : FloatOps.sitofp (F := Ideal) .f32 (0#32 : BitVec 32) = (0 : EReal) := by
  show ((((0#32 : BitVec 32).toInt : ℤ) : ℝ) : EReal) = 0
  simp

def cntV : FVec Ideal S_ .f32 := subf (constant S_ .f32 0x47435000#32) (sitofp .f32 (constantI S_ 32 0#32))

theorem cnt_norm (i : S_.Idx) : cntV i = Cert.Spec.cntN := by
  show Cert.Spec.cntN - FloatOps.sitofp (F := Ideal) .f32 (0#32 : BitVec 32) = _
  rw [sitofp_zero, sub_zero]

theorem cmp_cnt : Ideal.cmp .ogt Cert.Spec.cntN 0 = 1#1 := by
  simp [Ideal.cmp, cntN_pos]

theorem zero_bcast {T : Shape} (h : S_.BroadcastsInDim T ![]) (i : T.Idx) :
    broadcastInDim T ![] h (constant (F := Ideal) S_ .f32 0x00000000#32) i = (0 : EReal) := by
  rw [broadcastInDim_scalar_apply, constant_apply, Ideal.ofBits_zero_f32]

-- Each stage of a block is a function of vectors; each lemma below reads one as the matrix or row it computes.
theorem dense_eq {m k b : ℕ} (h1 : (⟨1, ![b]⟩ : Shape).BroadcastsInDim ⟨2, ![1, b]⟩ ![1])
    (h2 : (⟨2, ![1, b]⟩ : Shape).BroadcastsInDim ⟨2, ![m, b]⟩ ![0, 1])
    (X : FVec Ideal ⟨2, ![m, k]⟩ .f32) (Wt : FVec Ideal ⟨2, ![k, b]⟩ .f32) (c : FVec Ideal ⟨1, ![b]⟩ .f32) :
    a2 (addf (Host.dotGeneral (DotDims.plain m k b) none X Wt)
        (broadcastInDim ⟨2, ![m, b]⟩ ![0, 1] h2 (broadcastInDim ⟨2, ![1, b]⟩ ![1] h1 c)))
      = Cert.Spec.dense (a2 X) (a2 Wt) (v1 c) := by
  funext n j
  rw [a2_apply, addf_apply, StackMember.dotGeneral_plain_apply, bcast_rowDown_apply]
  rfl

theorem sp_eq {m b : ℕ} (x z : FVec Ideal ⟨2, ![m, b]⟩ .f32) (hz : ∀ i, z i = (0 : EReal)) :
    a2 (select (cmpf .une (subf x z) (subf x z)) (addf x z)
        (addf (maximumf x z) (Host.log1p (Host.exp (Host.negf (Host.absf (subf x z)))))))
      = fun n k => Cert.Spec.sp (a2 x n k) := by
  funext n k
  rw [a2_apply]
  simp only [select_apply, cmpf_apply, subf_apply, addf_apply, maximumf_apply,
    Host.log1p, Host.exp, Host.negf, Host.absf, Ideal.hostUnary_log1p_def, Ideal.hostUnary_exp_def, Ideal.hostNegf_def,
    Ideal.hostAbsf_def, Ideal.negf_def, Ideal.absf_def, Ideal.cmpf_def, hz, sub_zero, add_zero]
  have hc : ∀ d : EReal, Ideal.cmp .une d d = 0#1 := fun d => by simp [Ideal.cmp]
  rw [hc, select_zero]
  rfl

def colAcross (v : FVec Ideal S50000 .f32) : FVec Ideal S50000x10 .f32 :=
  broadcastInDim S50000x10 ![0, 1] bcast_S50000x1_S50000x10_0_1 (broadcastInDim S50000x1 ![0] bcast_S50000_S50000x1_0 v)

def shiftExp (y : FVec Ideal S50000x10 .f32) : FVec Ideal S50000x10 .f32 :=
  Host.exp (subf y (colAcross (maximumf (broadcastInDim S50000 ![] bcast_S_S50000 (constant S_ .f32 0xFF800000#32))
    (Host.reduce FloatOps.maximumf y (constant S_ .f32 0xFF800000#32) reducesTo_S50000x10_S50000_d1 h_S_))))

theorem shiftExp_apply (y : FVec Ideal S50000x10 .f32) (n : Fin 50000) (k : Fin 10) :
    shiftExp y (ix2 n k) = Ideal.exp (a2 y n k - Cert.Spec.rowMax (a2 y n)) := by
  unfold shiftExp colAcross
  show Ideal.exp (a2 y n k - _) = _
  rw [bcast_colAcross_apply, maximumf_apply, broadcastInDim_scalar_apply, constant_apply, ofBits_neg_inf,
    reduceMax_axis1_2 _ (by decide) h_S_ _ _ (by rw [constant_apply, ofBits_neg_inf]), max_bot_left]
  rfl

theorem smax_eq (y : FVec Ideal S50000x10 .f32) :
    a2 (Host.divf (shiftExp y) (colAcross (Host.reduceAdd (shiftExp y) (constant S_ .f32 0x00000000#32)
        reducesTo_S50000x10_S50000_d1 h_S_)))
      = fun n g => Cert.Spec.smax (a2 y n) g := by
  funext n g
  rw [a2_apply, hostDivf_apply]
  unfold colAcross
  rw [bcast_colAcross_apply, reduceAdd_axis1_2 _ (by decide), constant_apply, Ideal.ofBits_zero_f32, zero_add]
  simp only [shiftExp_apply]
  rfl

theorem feat_eq (s : FVec Ideal S50000x10 .f32) (h : FVec Ideal S50000x128 .f32) :
    a2 (shapeCast S50000x1280 (mulf
        (broadcastInDim S50000x10x128 ![0, 1, 2] bcast_S50000x10x1_S50000x10x128_0_1_2
          (broadcastInDim S50000x10x1 ![0, 1] bcast_S50000x10_S50000x10x1_0_1 s))
        (broadcastInDim S50000x10x128 ![0, 1, 2] bcast_S50000x1x128_S50000x10x128_0_1_2
          (broadcastInDim S50000x1x128 ![0, 2] bcast_S50000x128_S50000x1x128_0_2 h))) shapeCasts_S50000x10x128_S50000x1280)
      = Cert.Spec.feat (a2 s) (a2 h) := by
  funext n j
  refine (shapeCast_apply _ shapeCasts_S50000x10x128_S50000x1280 (ix2 n j) (ix3 n (Cert.Spec.gOf j) (Cert.Spec.fOf j)) ?_).trans ?_
  · rw [Shape.rowMajor_val_three, Shape.rowMajor_val_two]
    show (n.val * 10 + j.val / 128) * 128 + j.val % 128 = n.val * 1280 + j.val
    omega
  · rw [mulf_apply, bcast_ab_abc_apply, bcast_ac_abc_apply]
    rfl

def colSumV (o : FVec Ideal S50000x1280 .f32) : FVec Ideal S1280 .f32 :=
  Host.reduceAdd o (constant S_ .f32 0x00000000#32) reducesTo_S50000x1280_S1280_d0 h_S_

theorem colSumV_apply (o : FVec Ideal S50000x1280 .f32) (j : Fin 1280) : colSumV o (ix1 j) = Cert.Spec.colSum (a2 o) j := by
  show Host.reduceAdd _ _ _ _ (ix1 j) = _
  rw [reduceAdd_axis0_2 _ (by decide), constant_apply, Ideal.ofBits_zero_f32, zero_add]
  rfl

theorem mean_eq (o : FVec Ideal S50000x1280 .f32) :
    v1 (Host.divf (colSumV o) (broadcastInDim S1280 ![] bcast_S_S1280 (constant S_ .f32 0x47435000#32)))
      = Cert.Spec.mean (Cert.Spec.colSum (a2 o)) := by
  funext j
  rw [v1_apply, hostDivf_apply, colSumV_apply, broadcastInDim_scalar_apply, constant_apply]
  rfl

def dev (o : FVec Ideal S50000x1280 .f32) : FVec Ideal S50000x1280 .f32 :=
  subf o (broadcastInDim S50000x1280 ![0, 1] bcast_S1x1280_S50000x1280_0_1
    (Host.divf (broadcastInDim S1x1280 ![1] bcast_S1280_S1x1280_1 (colSumV o))
      (broadcastInDim S1x1280 ![] bcast_S_S1x1280 (constant S_ .f32 0x47435000#32))))

theorem dev_apply (o : FVec Ideal S50000x1280 .f32) (i : Fin 50000) (j : Fin 1280) :
    dev o (ix2 i j) = a2 o i j - Cert.Spec.mean (Cert.Spec.colSum (a2 o)) j := by
  show subf _ _ (ix2 i j) = _
  rw [subf_apply, broadcastInDim_oneRow_apply, hostDivf_apply, bcast_vecRow_apply, colSumV_apply,
    broadcastInDim_scalar_apply, constant_apply]
  rfl

-- The divisor is the positive node count, so the select takes the quotient.
theorem var_eq (o : FVec Ideal S50000x1280 .f32) (c : FVec Ideal S1280 .f32) :
    v1 (select (broadcastInDim S1280 ![] bcast_S_S1280 (cmpf .ogt cntV (constant S_ .f32 0x00000000#32)))
        (Host.divf (colSumV (mulf (dev o) (dev o))) (broadcastInDim S1280 ![] bcast_S_S1280 cntV)) c)
      = Cert.Spec.varR (a2 o) := by
  funext j
  rw [v1_apply, select_apply, broadcastInDim_scalar_apply, cmpf_apply, cnt_norm, constant_apply, Ideal.ofBits_zero_f32,
    Ideal.cmpf_def, cmp_cnt, select_one, hostDivf_apply, broadcastInDim_scalar_apply, cnt_norm, colSumV_apply]
  refine congrArg (fun s => Ideal.div s Cert.Spec.cntN) (Finset.sum_congr rfl fun i _ => ?_)
  rw [a2_apply, mulf_apply, dev_apply]

theorem norm_eq (o : FVec Ideal S50000x1280 .f32) (mu va ga be : FVec Ideal S1280 .f32) :
    a2 (addf (mulf (mulf
          (subf o (broadcastInDim S50000x1280 ![0, 1] bcast_S1x1280_S50000x1280_0_1 (broadcastInDim S1x1280 ![1] bcast_S1280_S1x1280_1 mu)))
          (broadcastInDim S50000x1280 ![0, 1] bcast_S1x1280_S50000x1280_0_1 (broadcastInDim S1x1280 ![1] bcast_S1280_S1x1280_1
            (Host.rsqrt (addf va (broadcastInDim S1280 ![] bcast_S_S1280 (constant S_ .f32 0x3727C5AC#32)))))))
          (broadcastInDim S50000x1280 ![0, 1] bcast_S1x1280_S50000x1280_0_1 (broadcastInDim S1x1280 ![1] bcast_S1280_S1x1280_1 ga)))
        (broadcastInDim S50000x1280 ![0, 1] bcast_S1x1280_S50000x1280_0_1 (broadcastInDim S1x1280 ![1] bcast_S1280_S1x1280_1 be)))
      = Cert.Spec.normed (a2 o) (v1 mu) (Cert.Spec.istd (v1 va)) (v1 ga) (v1 be) := by
  funext n j
  rw [a2_apply, addf_apply, mulf_apply, mulf_apply, subf_apply, bcast_rowDown_apply, bcast_rowDown_apply, bcast_rowDown_apply,
    bcast_rowDown_apply]
  rfl

-- Entry `(g, f)` of the `[50000, 10, 128]` array and column `g·128 + f` of the `[50000, 1280]` one share a row-major position.
theorem out_apply (x h : FVec Ideal S50000x128 .f32) (y : FVec Ideal S50000x1280 .f32) (n : Fin 50000) (f : Fin 128) :
    addf x (addf h (mulf (broadcastInDim S50000x128 ![] bcast_S_S50000x128 (constant S_ .f32 0x3C23D70A#32))
        (Host.reduceAdd (shapeCast S50000x10x128 y shapeCasts_S50000x1280_S50000x10x128) (constant S_ .f32 0x00000000#32)
          reducesTo_S50000x10x128_S50000x128_d1 h_S_))) (ix2 n f)
      = a2 x n f + (a2 h n f + Cert.Spec.lam * Cert.Spec.groupSum (a2 y) n f) := by
  rw [addf_apply, addf_apply, mulf_apply, broadcastInDim_scalar_apply, constant_apply, reduceAdd_axis1_3 _ (by decide),
    constant_apply, Ideal.ofBits_zero_f32, zero_add]
  refine Eq.trans ?_ (rfl : a2 x n f + (a2 h n f + Cert.Spec.lam * ∑ g : Fin 10, a2 y n (Cert.Spec.jOf g f)) = _)
  congr 3
  refine Finset.sum_congr rfl fun k _ => ?_
  refine shapeCast_apply _ shapeCasts_S50000x1280_S50000x10x128 (ix3 n k f) (ix2 n (Cert.Spec.jOf k f)) ?_
  rw [Shape.rowMajor_val_three, Shape.rowMajor_val_two]
  show n.val * 1280 + (k.val * 128 + f.val) = (n.val * 10 + k.val) * 128 + f.val
  omega

end Cert.ReferenceIdeal.RefBlock

end
-- ==== Proof.RefCombine.lean ====
import proofs.«158783_j47974784696399_1_alg».proof.Proof.RefOps
import proofs.«158783_j47974784696399_1_alg».proof.Proof.RefBlock
import proofs.«158783_j47974784696399_1_alg».proof.Proof.Spec
import proofs.«158783_j47974784696399_1_alg».proof.Proof.Arr
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefCombine

open Cert.ReferenceIdeal Cert.ReferenceIdeal.Gen Cert.ReferenceIdeal.RefOps Idealize.ShloMosaic Idealize.ShloMosaic.TcCoe Idealize.ShloMosaic.ValueIdx Idealize.SL.Sem Cert.Arr

abbrev msgs (W : Valuation τ sig (Elt Ideal)) : FVec Ideal S50000x128 .f32 :=
  StableHlo.after (opsC (F := Ideal)) W (Proc.devRef .tc main_v4)

abbrev scat (W : Valuation τ sig (Elt Ideal)) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![0, 0] (W (Proc.devRef .tc main_arg1)) slices_S2x800000_S1x800000_0_0) shapeCasts_S1x800000_S800000))
    (W (Proc.devRef .tc main_arg2))

def spArr (x : FVec Ideal S50000x128 .f32) : FVec Ideal S50000x128 .f32 :=
  select (cmpf .une (subf x (broadcastInDim S50000x128 ![] bcast_S_S50000x128 (constant (F := Ideal) S_ .f32 0x00000000#32))) (subf x (broadcastInDim S50000x128 ![] bcast_S_S50000x128 (constant (F := Ideal) S_ .f32 0x00000000#32))))
    (addf x (broadcastInDim S50000x128 ![] bcast_S_S50000x128 (constant (F := Ideal) S_ .f32 0x00000000#32)))
    (addf (maximumf x (broadcastInDim S50000x128 ![] bcast_S_S50000x128 (constant (F := Ideal) S_ .f32 0x00000000#32))) (Host.log1p (Host.exp (Host.negf (Host.absf (subf x (broadcastInDim S50000x128 ![] bcast_S_S50000x128 (constant (F := Ideal) S_ .f32 0x00000000#32))))))))

theorem msgs_eq (W : Valuation τ sig (Elt Ideal)) : msgs W = scat W := by
  show StableHlo.after (opsC (F := Ideal)) W (Proc.devRef .tc main_v4) = _
  simp only [opsC]
  after_results
  rfl

-- The layer's operations compose to: softplus of the product of the three concatenated column groups with the weights, plus the bias.
theorem opsC_v12 (W : Valuation τ sig (Elt Ideal)) :
    StableHlo.after (opsC (F := Ideal)) W (Proc.devRef .tc main_v12)
      = spArr (addf (Host.dotGeneral (φ₁ := .f32) (φ₂ := .f32) (DotDims.plain 50000 320 128) none
          (concatenate S50000x320 1 [⟨S50000x128, W (Proc.devRef .tc main_arg0)⟩, ⟨S50000x128, scat W⟩,
            ⟨S50000x64, shapeCast S50000x64 (broadcastInDim S1x50000x64 ![0, 2] bcast_S1x64_S1x50000x64_0_2 (W (Proc.devRef .tc main_arg3)))
              shapeCasts_S1x50000x64_S50000x64⟩] concatenates_S50000x128_S50000x128_S50000x64_S50000x320_d1)
          (W (Proc.devRef .tc main_arg4)))
        (broadcastInDim S50000x128 ![0, 1] bcast_S1x128_S50000x128_0_1 (broadcastInDim S1x128 ![1] bcast_S128_S1x128_1 (W (Proc.devRef .tc main_arg5))))) := by
  unfold spArr
  after_results_simp
  simp only [StableHlo.TRef.toBuf, StableHlo.TRef.ofBuf, cast_eq]
  rfl

theorem glob_apply (g : FVec Ideal S1x64 .f32) (n : Fin 50000) (k : Fin 64) :
    shapeCast S50000x64 (broadcastInDim S1x50000x64 ![0, 2] bcast_S1x64_S1x50000x64_0_2 g) shapeCasts_S1x50000x64_S50000x64 (ix2 n k)
      = g (ix2 (0 : Fin 1) k) := by
  rw [shapeCast_1ab_ab_apply,
    broadcastInDim_apply ![0, 2] bcast_S1x64_S1x50000x64_0_2 _ (ix3 (0 : Fin 1) n k) (ix2 (0 : Fin 1) k) (fun a => by
        match a with
        | ⟨0, _⟩ => rfl
        | ⟨1, _⟩ => rfl)]

theorem cat_apply (X M : FVec Ideal S50000x128 .f32) (G : FVec Ideal S50000x64 .f32) (g : Cert.Spec.Row 64)
    (hG : ∀ (n : Fin 50000) (k : Fin 64), G (ix2 n k) = g k) (n : Fin 50000) (k : Fin 320) :
    concatenate S50000x320 1 [⟨S50000x128, X⟩, ⟨S50000x128, M⟩, ⟨S50000x64, G⟩]
        concatenates_S50000x128_S50000x128_S50000x64_S50000x320_d1 (ix2 n k)
      = Cert.Spec.catRow (a2 X) (a2 M) g n k := by
  unfold Cert.Spec.catRow
  split_ifs with h1 h2
  · exact concatenate_apply_piece (1 : Fin S50000x320.rank) _ _ (ix2 n k) 0 (by show (0 : ℕ) < 3; omega) S50000x128 X rfl rfl 0 rfl
      (ix2 n ⟨k.val, h1⟩)
      (fun b hb => by
        match b with
        | ⟨0, _⟩ => rfl
        | ⟨1, _⟩ => exact absurd (Fin.ext rfl) hb)
      (Nat.zero_add _)
  · exact concatenate_apply_piece (1 : Fin S50000x320.rank) _ _ (ix2 n k) 1 (by show (1 : ℕ) < 3; omega) S50000x128 M rfl rfl 128 rfl
      (ix2 n ⟨k.val - 128, by omega⟩)
      (fun b hb => by
        match b with
        | ⟨0, _⟩ => rfl
        | ⟨1, _⟩ => exact absurd (Fin.ext rfl) hb)
      (by show 128 + (k.val - 128) = k.val; omega)
  · rw [← hG n ⟨k.val - 256, by have := k.isLt; omega⟩]
    exact concatenate_apply_piece (1 : Fin S50000x320.rank) _ _ (ix2 n k) 2 (by show (2 : ℕ) < 3; omega) S50000x64 G rfl rfl 256 rfl
      (ix2 n ⟨k.val - 256, by have := k.isLt; omega⟩)
      (fun b hb => by
        match b with
        | ⟨0, _⟩ => rfl
        | ⟨1, _⟩ => exact absurd (Fin.ext rfl) hb)
      (by show 256 + (k.val - 256) = k.val; omega)

theorem cat_eq (X M : FVec Ideal S50000x128 .f32) (g : FVec Ideal S1x64 .f32) :
    a2 (concatenate S50000x320 1 [⟨S50000x128, X⟩, ⟨S50000x128, M⟩,
        ⟨S50000x64, shapeCast S50000x64 (broadcastInDim S1x50000x64 ![0, 2] bcast_S1x64_S1x50000x64_0_2 g) shapeCasts_S1x50000x64_S50000x64⟩]
        concatenates_S50000x128_S50000x128_S50000x64_S50000x320_d1) = Cert.Spec.catRow (a2 X) (a2 M) (r1 g) :=
  funext fun n => funext fun k => cat_apply X M _ (r1 g) (fun n k => glob_apply g n k) n k

theorem value (W : Valuation τ sig (Elt Ideal)) (n : Fin 50000) (f : Fin 128) :
    StableHlo.after (opsC (F := Ideal)) W (Proc.devRef .tc main_v12) (ix2 n f)
      = Cert.Spec.combineR (a2 (W (Proc.devRef .tc main_arg0))) (a2 (msgs W)) (r1 (W (Proc.devRef .tc main_arg3)))
          (a2 (W (Proc.devRef .tc main_arg4))) (v1 (W (Proc.devRef .tc main_arg5))) n f := by
  show a2 (StableHlo.after (opsC (F := Ideal)) W (Proc.devRef .tc main_v12)) n f = _
  rw [opsC_v12, show a2 (spArr _) = _ from RefBlock.sp_eq _ _ (RefBlock.zero_bcast _), RefBlock.dense_eq, cat_eq, msgs_eq]
  rfl

end Cert.ReferenceIdeal.RefCombine

end
-- ==== Proof.RealMat.lean ====
import proofs.«158783_j47974784696399_1_alg».proof.Proof.Spec
import proofs.«158783_j47974784696399_1_alg».proof.Proof.Reals

noncomputable section

namespace Cert.Spec

open Idealize.ShloMosaic

variable {n a k b : ℕ}

theorem mm_real {A : Mat a k} {W : Mat k b} (hA : RealM A) (hW : RealM W) : RealM (mm A W) :=
  fun i j => sum_real _ _ fun t _ => mul_real (hA i t) (hW t j)

theorem dense_real {A : Mat a k} {W : Mat k b} {bias : Row b} (hA : RealM A) (hW : RealM W) (hb : RealV bias) :
    RealM (dense A W bias) :=
  fun i j => add_real (mm_real hA hW i j) (hb j)

theorem catRow_real {x ms : Mat n 128} {g : Row 64} (hx : RealM x) (hm : RealM ms) (hg : RealV g) :
    RealM (catRow x ms g) := by
  intro i c
  unfold catRow
  split_ifs with h1 h2
  · exact hx i _
  · exact hm i _
  · exact hg _

theorem combineR_real {x ms : Mat n 128} {g : Row 64} {Wc : Mat 320 128} {bc : Row 128}
    (hx : RealM x) (hm : RealM ms) (hg : RealV g) (hW : RealM Wc) (hbc : RealV bc) : RealM (combineR x ms g Wc bc) :=
  fun i j => sp_real (dense_real (catRow_real hx hm hg) hW hbc i j)

theorem hid_real {out : Mat n 128} {W1 : Mat 128 128} {b1 : Row 128} {W2 : Mat 128 128} {b2 : Row 128}
    (ho : RealM out) (h1 : RealM W1) (hb1 : RealV b1) (h2 : RealM W2) (hb2 : RealV b2) : RealM (hid out W1 b1 W2 b2) :=
  dense_real (fun i c => sp_real (dense_real ho h1 hb1 i c)) h2 hb2

theorem gate_real {h : Mat n 128} {linW : Mat 128 10} {linb : Row 10} (hh : RealM h) (hW : RealM linW) (hb : RealV linb) :
    RealM (gate h linW linb) :=
  fun i g => smax_real _ (fun j => dense_real hh hW hb i j) g

theorem feat_real {s : Mat n 10} {h : Mat n 128} (hs : RealM s) (hh : RealM h) : RealM (feat s h) :=
  fun i j => mul_real (hs i _) (hh i _)

theorem colSum_real {o : Mat n 1280} (ho : RealM o) : RealV (colSum o) :=
  fun j => sum_real _ _ fun i _ => ho i j

theorem mean_real {S : Row 1280} (hS : RealV S) : RealV (mean S) := by
  intro j
  obtain ⟨s, hs⟩ := hS j
  show ∃ r : ℝ, Ideal.div (S j) cntN = (r : EReal)
  rw [hs, cntN_eq, div_real s 50000 (by norm_num)]
  exact ⟨_, rfl⟩

-- the mean of squared deviations of real columns is a nonnegative real
theorem varR_nonneg {o : Mat n 1280} (ho : RealM o) : ∀ j, ∃ v : ℝ, 0 ≤ v ∧ varR o j = (v : EReal) := by
  intro j
  obtain ⟨m, hm⟩ := mean_real (colSum_real ho) j
  choose f hf using ho
  refine ⟨(∑ i, (f i j - m) * (f i j - m)) / 50000, ?_, ?_⟩
  · exact div_nonneg (Finset.sum_nonneg (fun i _ => mul_self_nonneg _)) (by norm_num)
  · show Ideal.div (∑ i, (o i j - mean (colSum o) j) * (o i j - mean (colSum o) j)) cntN = _
    rw [dev_coe (fun i => hf i j) hm, cntN_eq, div_real _ 50000 (by norm_num)]

-- a nonnegative real plus the positive offset is a positive real, whose reciprocal square root is real
theorem istd_real {v : Row 1280} (hv : ∀ j, ∃ r : ℝ, 0 ≤ r ∧ v j = (r : EReal)) : RealV (istd v) := by
  intro j
  obtain ⟨r, hr0, hr⟩ := hv j
  obtain ⟨e, he0, he⟩ := eps_pos
  show ∃ s : ℝ, Ideal.rsqrt (v j + eps) = (s : EReal)
  rw [hr, he, ← EReal.coe_add]
  exact rsqrt_real _ (by linarith)

theorem applyBlock_real {out h : Mat n 128} {s : Mat n 10} {mu iv gamma beta : Row 1280}
    (ho : RealM out) (hh : RealM h) (hs : RealM s) (hmu : RealV mu) (hiv : RealV iv) (hg : RealV gamma) (hb : RealV beta) :
    RealM (applyBlock out h s mu iv gamma beta) :=
  fun i f => add_real (ho i f) (add_real (hh i f) (mul_real lam_real (sum_real _ _ fun g _ =>
    add_real (mul_real (mul_real (sub_real (feat_real hs hh i (jOf g f)) (hmu _)) (hiv _)) (hg _)) (hb _))))

theorem blockR_real {P : Params} (hP : P.Real) {out : Mat n 128} (ho : RealM out) : RealM (blockR P out) := by
  have hh := hid_real ho hP.W1 hP.b1 hP.W2 hP.b2
  have hs := gate_real hh hP.linW hP.linb
  have hf := feat_real hs hh
  exact applyBlock_real ho hh hs (mean_real (colSum_real hf)) (istd_real (varR_nonneg hf)) hP.gamma hP.beta

end Cert.Spec

end
-- ==== Proof.Variance.lean ====
import proofs.«158783_j47974784696399_1_alg».proof.Proof.Spec
import proofs.«158783_j47974784696399_1_alg».proof.Proof.Reals

noncomputable section

namespace Cert.Spec

open Idealize.ShloMosaic

-- over N terms with sum S and mean m = S / N: Σ (r i - m)² = Σ r i² - 2 m S + N m², so dividing by N gives (Σ r i²) / N - m²
theorem var_real (r : Fin 50000 → ℝ) :
    (∑ i, r i * r i) / 50000 - (∑ i, r i) / 50000 * ((∑ i, r i) / 50000)
      = (∑ i, (r i - (∑ i, r i) / 50000) * (r i - (∑ i, r i) / 50000)) / 50000 := by
  generalize hS : (∑ i, r i) = S
  generalize hm : S / 50000 = m
  have hexp : (∑ i : Fin 50000, (r i - m) * (r i - m)) = (∑ i, r i * r i) - 2 * m * S + 50000 * (m * m) := by
    have hpt : ∀ i : Fin 50000, (r i - m) * (r i - m) = r i * r i - 2 * m * r i + m * m := fun i => by ring
    simp only [hpt]
    rw [Finset.sum_add_distrib, Finset.sum_sub_distrib, ← Finset.mul_sum, hS, Finset.sum_const, Finset.card_univ,
      Fintype.card_fin, nsmul_eq_mul]
    push_cast
    ring
  rw [hexp, ← hm]
  field_simp
  ring

theorem varK_eq_varR (o : Mat 50000 1280) (ho : RealM o) : varK (colSum o) (colSumSq o) = varR o := by
  funext j
  choose r hr using fun i => ho i j
  have hN : (50000 : ℝ) ≠ 0 := by norm_num
  have hS : colSum o j = ((∑ i, r i : ℝ) : EReal) := by
    unfold colSum
    rw [coe_sum]
    exact Finset.sum_congr rfl (fun i _ => hr i)
  have hSS : colSumSq o j = ((∑ i, r i * r i : ℝ) : EReal) := by
    unfold colSumSq
    rw [coe_sum]
    exact Finset.sum_congr rfl fun i _ => by rw [hr i, EReal.coe_mul]
  have hmean : mean (colSum o) j = (((∑ i, r i) / 50000 : ℝ) : EReal) := by
    unfold mean
    rw [hS, cntN_eq, div_real _ _ hN]
  unfold varK varR
  rw [dev_coe hr hmean, hSS, hmean, cntN_eq, div_real _ _ hN, div_real _ _ hN, ← EReal.coe_mul, ← EReal.coe_sub, var_real r]

end Cert.Spec

end
-- ==== Proof.Combine.lean ====
import proofs.«158783_j47974784696399_1_alg».proof.Proof.Spec

noncomputable section

namespace Cert.Spec

open Idealize.ShloMosaic

-- 320 = 128 + (128 + 64), and a sum over Fin (m + n) splits into its two ranges
theorem sum_fin320_split (f : Fin 320 → EReal) :
    ∑ k, f k = ∑ k : Fin 128, f ⟨k.val, by have := k.isLt; omega⟩
      + (∑ k : Fin 128, f ⟨128 + k.val, by have := k.isLt; omega⟩
        + ∑ k : Fin 64, f ⟨256 + k.val, by have := k.isLt; omega⟩) := by
  have h1 : ∑ k : Fin (128 + (128 + 64)), f k
      = ∑ k : Fin 128, f (Fin.castAdd (128 + 64) k) + ∑ k : Fin (128 + 64), f (Fin.natAdd 128 k) :=
    Fin.sum_univ_add (fun k : Fin (128 + (128 + 64)) => f k)
  have h2 : ∑ k : Fin (128 + 64), f (Fin.natAdd 128 k)
      = ∑ k : Fin 128, f (Fin.natAdd 128 (Fin.castAdd 64 k)) + ∑ k : Fin 64, f (Fin.natAdd 128 (Fin.natAdd 128 k)) :=
    Fin.sum_univ_add (fun k : Fin (128 + 64) => f (Fin.natAdd 128 k))
  rw [h2] at h1
  refine h1.trans ?_
  congr 1

variable {n : ℕ} (x ms : Mat n 128) (g : Row 64) (i : Fin n)

theorem catRow_lo (k : Fin 128) (h : k.val < 320) : catRow x ms g i ⟨k.val, h⟩ = x i k := by
  simp [catRow, k.isLt]

theorem catRow_mid (k : Fin 128) (h : 128 + k.val < 320) : catRow x ms g i ⟨128 + k.val, h⟩ = ms i k := by
  have hk := k.isLt
  simp [catRow, show ¬ (128 + k.val < 128) by omega, show 128 + k.val < 256 by omega]

theorem catRow_hi (k : Fin 64) (h : 256 + k.val < 320) : catRow x ms g i ⟨256 + k.val, h⟩ = g k := by
  simp [catRow, show ¬ (256 + k.val < 128) by omega, show ¬ (256 + k.val < 256) by omega]

-- the product over the 320 concatenated columns is the sum of the products over its three column groups
theorem combineK_eq_combineR (Wc : Mat 320 128) (bc : Row 128) :
    combineK x ms (rows 0 128 (by norm_num) Wc) (rows 128 128 (by norm_num) Wc) (biasK bc g (rows 256 64 (by norm_num) Wc))
      = combineR x ms g Wc bc := by
  funext i j
  unfold combineK combineR
  congr 1
  unfold mm biasK rows
  rw [sum_fin320_split (fun k => catRow x ms g i k * Wc k j)]
  simp only [catRow_lo, catRow_mid, catRow_hi, Nat.zero_add]
  ac_rfl

end Cert.Spec

end
-- ==== Proof.Equiv.lean ====
import proofs.«158783_j47974784696399_1_alg».proof.Proof.Spec
import proofs.«158783_j47974784696399_1_alg».proof.Proof.Reals
import proofs.«158783_j47974784696399_1_alg».proof.Proof.RealMat
import proofs.«158783_j47974784696399_1_alg».proof.Proof.Variance
import proofs.«158783_j47974784696399_1_alg».proof.Proof.Combine

noncomputable section

namespace Cert.Spec

open Idealize.ShloMosaic

theorem blockK_eq_blockR (P : Params) (hP : P.Real) (out : Mat 50000 128) (ho : RealM out) :
    blockK P out = blockR P out := by
  have hh : RealM (hid out P.W1 P.b1 P.W2 P.b2) := hid_real ho hP.W1 hP.b1 hP.W2 hP.b2
  have hs : RealM (gate (hid out P.W1 P.b1 P.W2 P.b2) P.linW P.linb) := gate_real hh hP.linW hP.linb
  simp only [blockK, blockR, varK_eq_varR _ (feat_real hs hh)]

theorem resK_eq_resR (x ms : Mat 50000 128) (g : Row 64) (Wc : Mat 320 128) (bc : Row 128) (Pa Pb : Params)
    (hx : RealM x) (hms : RealM ms) (hg : RealV g) (hWc : RealM Wc) (hbc : RealV bc) (hPa : Pa.Real) (hPb : Pb.Real) :
    resK x ms g Wc bc Pa Pb = resR x ms g Wc bc Pa Pb := by

  have h0 : RealM (combineR x ms g Wc bc) := combineR_real hx hms hg hWc hbc
  have ha : RealM (blockR Pa (combineR x ms g Wc bc)) := blockR_real hPa h0

  simp only [resK, resR, combineK_eq_combineR, blockK_eq_blockR Pa hPa _ h0, blockK_eq_blockR Pb hPb _ ha]

end Cert.Spec

end
-- ==== Proof.Assembly.lean ====
import proofs.«158783_j47974784696399_1_alg».proof.Defs
import proofs.«158783_j47974784696399_1_alg».proof.Proof.Gen.Kernel.Frame
import proofs.«158783_j47974784696399_1_alg».proof.Proof.Gen.KernelIdeal.Frame
import proofs.«158783_j47974784696399_1_alg».proof.Proof.Gen.ReferenceIdeal
import proofs.«158783_j47974784696399_1_alg».proof.Proof.Gen.Pre_finite_inputs
import proofs.«158783_j47974784696399_1_alg».proof.Proof.KRun
import proofs.«158783_j47974784696399_1_alg».proof.Proof.RefRun
import proofs.«158783_j47974784696399_1_alg».proof.Proof.RefChain
import proofs.«158783_j47974784696399_1_alg».proof.Proof.RefArgs
import proofs.«158783_j47974784696399_1_alg».proof.Proof.RefCombine
import proofs.«158783_j47974784696399_1_alg».proof.Proof.Equiv
import proofs.«158783_j47974784696399_1_alg».proof.Proof.Arr
import proofs.«158783_j47974784696399_1_alg».proof.Proof.Spec
import Idealize.ShloMosaic.Lib.ValueIdx

noncomputable section

namespace Cert.Assembly

open Idealize.ShloMosaic Idealize.SL.Sem Idealize.ShloMosaic.TcCoe Idealize.ShloMosaic.ValueIdx Cert.Arr

section Kernel
open Cert.KernelIdeal Cert.KernelIdeal.Gen
variable (m : (ℓ : Loc nD τ sig) → Buf (Elt Ideal) ℓ) (c : Dev nD)

abbrev msgsK : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![0, 0] (m ((c.tc : Thread nD τ).loc main_arg1)) slices_S2x800000_S1x800000_0_0) shapeCasts_S1x800000_S800000))
    (m ((c.tc : Thread nD τ).loc main_arg2))
abbrev PaK : Cert.Spec.Params :=
  ⟨a2 (m ((c.tc : Thread nD τ).loc main_arg6)), v1 (m ((c.tc : Thread nD τ).loc main_arg7)), a2 (m ((c.tc : Thread nD τ).loc main_arg8)), v1 (m ((c.tc : Thread nD τ).loc main_arg9)),
   a2 (m ((c.tc : Thread nD τ).loc main_arg10)), v1 (m ((c.tc : Thread nD τ).loc main_arg11)), v1 (m ((c.tc : Thread nD τ).loc main_arg12)), v1 (m ((c.tc : Thread nD τ).loc main_arg13))⟩
abbrev PbK : Cert.Spec.Params :=
  ⟨a2 (m ((c.tc : Thread nD τ).loc main_arg14)), v1 (m ((c.tc : Thread nD τ).loc main_arg15)), a2 (m ((c.tc : Thread nD τ).loc main_arg16)), v1 (m ((c.tc : Thread nD τ).loc main_arg17)),
   a2 (m ((c.tc : Thread nD τ).loc main_arg18)), v1 (m ((c.tc : Thread nD τ).loc main_arg19)), v1 (m ((c.tc : Thread nD τ).loc main_arg20)), v1 (m ((c.tc : Thread nD τ).loc main_arg21))⟩
abbrev netK (n : Fin 50000) (f : Fin 128) : EReal :=
  Cert.Spec.resK (a2 (m ((c.tc : Thread nD τ).loc main_arg0))) (a2 (msgsK m c)) (r1 (m ((c.tc : Thread nD τ).loc main_arg3))) (a2 (m ((c.tc : Thread nD τ).loc main_arg4)))
    (v1 (m ((c.tc : Thread nD τ).loc main_arg5))) (PaK m c) (PbK m c) n f
abbrev realK : Prop :=
  Cert.Spec.RealM (a2 (m ((c.tc : Thread nD τ).loc main_arg0))) ∧ Cert.Spec.RealM (a2 (msgsK m c)) ∧ Cert.Spec.RealV (r1 (m ((c.tc : Thread nD τ).loc main_arg3)))
  ∧ Cert.Spec.RealM (a2 (m ((c.tc : Thread nD τ).loc main_arg4))) ∧ Cert.Spec.RealV (v1 (m ((c.tc : Thread nD τ).loc main_arg5))) ∧ (PaK m c).Real ∧ (PbK m c).Real
end Kernel

section Reference
open Cert.ReferenceIdeal Cert.ReferenceIdeal.Gen
variable (W : Valuation τ sig (Elt Ideal))

abbrev netR (n : Fin 50000) (f : Fin 128) : EReal :=
  Cert.Spec.resR (a2 (W (Proc.devRef .tc main_arg0))) (a2 (RefCombine.scat W)) (r1 (W (Proc.devRef .tc main_arg3)))
    (a2 (W (Proc.devRef .tc main_arg4))) (v1 (W (Proc.devRef .tc main_arg5))) (RefChain.PA W) (RefChain.PB W) n f
end Reference

-- Both programs run; on real inputs the two spellings of the network are one function, and the memories agree on the arguments.
theorem algebraic_of
    (hK : ∀ (m : (ℓ : Loc Cert.KernelIdeal.nD Cert.KernelIdeal.τ Cert.KernelIdeal.sig) → Buf (Elt Ideal) ℓ) (ρ : Dev Cert.KernelIdeal.nD → PrngReg)
        (c : Dev Cert.KernelIdeal.nD) (n : Fin 50000) (f : Fin 128),
      Cert.KernelIdeal.Gen.W10 (F := Ideal) m ρ c (Proc.devRef .tc Cert.KernelIdeal.main_v43) (ix2 n f) = netK m c n f)
    (hR : ∀ (W : Valuation Cert.ReferenceIdeal.τ Cert.ReferenceIdeal.sig (Elt Ideal)) (n : Fin 50000) (f : Fin 128),
      StableHlo.after (Cert.ReferenceIdeal.RefOps.ops (F := Ideal)) W (Proc.devRef .tc Cert.ReferenceIdeal.main_v123) (ix2 n f) = netR W n f)
    (hin : ∀ m, Cert.Pre_KernelIdeal m → ∀ c, realK m c) :
    Cert.algebraic_KernelIdeal_ReferenceIdeal := by
  intro m ρ m' ρ' hpre hagree
  refine ⟨fun c => Cert.KernelIdeal.Gen.W10 (F := Ideal) m ρ c (Proc.devRef .tc Cert.KernelIdeal.main_v43), Cert.KernelIdeal.KRun.run m ρ, ?_⟩
  refine (θ_run Cert.ReferenceIdeal.defs _ _).mono (fun r h c => ⟨?_, by
    repeat' apply And.intro
    all_goals exact (h c _).trans (Cert.ReferenceIdeal.RefArgs.ops_keep _ (by decide))⟩) (Cert.ReferenceIdeal.RefRun.run m' ρ')
  refine (h c Cert.ReferenceIdeal.main_v123).trans (funext fun i => ?_)
  obtain ⟨n, f, rfl⟩ : ∃ (n : Fin 50000) (f : Fin 128), i = ix2 n f := ⟨i 0, i 1, eq_ix2 i⟩
  obtain ⟨h0, hms, h3, h4, h5, hPa, hPb⟩ := hin m hpre c
  rw [hR]
  show _ = Cert.KernelIdeal.Gen.W10 (F := Ideal) m ρ c (Proc.devRef .tc Cert.KernelIdeal.main_v43) (ix2 n f)
  rw [hK m ρ c n f]
  dsimp only [netK]
  rw [Cert.Spec.resK_eq_resR _ _ _ _ _ _ _ h0 hms h3 h4 h5 hPa hPb]
  obtain ⟨e0, e1, e2, e3, e4, e5, e6, e7, e8, e9, e10, e11, e12, e13, e14, e15, e16, e17, e18, e19, e20, e21⟩ := hagree c
  dsimp only [PaK, PbK, msgsK]
  rw [← e0, ← e1, ← e2, ← e3, ← e4, ← e5, ← e6, ← e7, ← e8, ← e9, ← e10, ← e11, ← e12, ← e13, ← e14, ← e15, ← e16, ← e17, ← e18,
    ← e19, ← e20, ← e21]
  rfl

end Cert.Assembly

end
-- ==== Proof.KHost.lean ====
import proofs.«158783_j47974784696399_1_alg».proof.Proof.Gen.KernelIdeal.Launch
import proofs.«158783_j47974784696399_1_alg».proof.Proof.Arr
import Idealize.ShloMosaic.Lib.ValueLayout
import Idealize.ShloMosaic.Lib.IdealHost
import Idealize.ShloMosaic.Lib.StackMember
import Idealize.ShloMosaic.Lib.StableHlo.Run

noncomputable section

namespace Cert.KernelIdeal.KHost

open Cert.KernelIdeal Cert.KernelIdeal.Gen Idealize.ShloMosaic Idealize.ShloMosaic.TcCoe Idealize.ShloMosaic.ValueIdx Idealize.ShloMosaic.StackMember Idealize.SL.Sem Cert.Arr Cert.Spec

-- A vector reshaped to one row is that vector.
theorem row_of {a : ℕ} {X : (⟨2, ![1, a]⟩ : Shape).Idx → EReal} {x : (⟨1, ![a]⟩ : Shape).Idx → EReal} {h}
    (e : X = fun i => shapeCast ⟨2, ![1, a]⟩ x h i) : r1 X = v1 x :=
  e ▸ funext fun j => shapeCast_a_1a_apply x h 0 j

-- Whole rows sliced from row lo on are those rows of the matrix.
theorem rows_of {a b cnt : ℕ} (lo : ℕ) (hle : lo + cnt ≤ a) {X} {x : (⟨2, ![a, b]⟩ : Shape).Idx → EReal} {h}
    (e : X = extractStridedSlice ⟨2, ![cnt, b]⟩ ![lo, 0] x h) : a2 X = rows lo cnt hle (a2 x) :=
  e ▸ funext fun k => funext fun j => slice2_axis0_apply lo x h k j _ rfl

abbrev cntB : FVec Ideal S1x1280 .f32 := broadcastInDim S1x1280 ![] bcast_S_S1x1280 (constant (F := Ideal) S_ .f32 0x47435000#32)
abbrev epsB : FVec Ideal S1x1280 .f32 := broadcastInDim S1x1280 ![] bcast_S_S1x1280 (constant (F := Ideal) S_ .f32 0x3727C5AC#32)

-- The column sums divided by the node count are the column means.
theorem mean_of {X S : FVec Ideal S1x1280 .f32} (e : X = Host.divf S cntB) : r1 X = mean (r1 S) := by
  subst e; funext j
  show Ideal.div _ (broadcastInDim _ _ _ _ _) = _
  rw [broadcastInDim_scalar_apply]; rfl

-- The inverse deviation from the two accumulated sums.
theorem istd_of {X S SS : FVec Ideal S1x1280 .f32}
    (e : X = Host.rsqrt (addf (subf (Host.divf SS cntB) (mulf (Host.divf S cntB) (Host.divf S cntB))) epsB)) :
    r1 X = istd (varK (r1 S) (r1 SS)) := by
  subst e; funext j
  show Ideal.rsqrt ((Ideal.div _ (broadcastInDim _ _ _ _ _) - Ideal.div _ (broadcastInDim _ _ _ _ _) * Ideal.div _ (broadcastInDim _ _ _ _ _))
    + broadcastInDim _ _ _ _ _) = _
  simp only [broadcastInDim_scalar_apply]; rfl

variable (W : Valuation τ sig (Elt Ideal))

theorem h0_wx : a2 (StableHlo.after hostOps0 W main_v5)
    = rows 0 128 (by norm_num) (a2 (W main_arg4)) :=
  rows_of 0 _ (by simp only [hostOps0]; after_results)
theorem h0_wm : a2 (StableHlo.after hostOps0 W main_v6)
    = rows 128 128 (by norm_num) (a2 (W main_arg4)) :=
  rows_of 128 _ (by simp only [hostOps0]; after_results)
theorem h0_bias : r1 (StableHlo.after hostOps0 W main_v10)
    = biasK (v1 (W main_arg5)) (r1 (W main_arg3))
        (rows 256 64 (by norm_num) (a2 (W main_arg4))) := by
  funext j
  rw [r1_apply]; simp only [hostOps0]; after_results
  exact congrArg₂ (· + ·) (shapeCast_a_1a_apply _ _ 0 j)
    ((dotGeneral_plain_apply none _ _ 0 j).trans (Finset.sum_congr rfl fun k _ => congrArg _ (slice2_axis0_apply 256 _ _ k j _ rfl)))

theorem h1_b1 : r1 (StableHlo.after hostOps1 W main_v12) = v1 (W main_arg7) :=
  row_of (by simp only [hostOps1]; after_results; rfl)
theorem h1_b2 : r1 (StableHlo.after hostOps1 W main_v13) = v1 (W main_arg9) :=
  row_of (by simp only [hostOps1]; after_results; rfl)
theorem h1_linb : r1 (StableHlo.after hostOps1 W main_v14) = v1 (W main_arg11) :=
  row_of (by simp only [hostOps1]; after_results; rfl)
theorem h1_gamma : r1 (StableHlo.after hostOps1 W main_v15) = v1 (W main_arg12) :=
  row_of (by simp only [hostOps1]; after_results; rfl)
theorem h1_beta : r1 (StableHlo.after hostOps1 W main_v16) = v1 (W main_arg13) :=
  row_of (by simp only [hostOps1]; after_results; rfl)

theorem h2_mean : r1 (StableHlo.after hostOps2 W main_v19) = mean (r1 (W main_v17_1)) :=
  mean_of (by simp only [hostOps2]; after_results)
theorem h2_istd : r1 (StableHlo.after hostOps2 W main_v26)
    = istd (varK (r1 (W main_v17_1)) (r1 (W main_v17_2))) :=
  istd_of (by simp only [hostOps2]; after_results)

theorem h3_b1 : r1 (StableHlo.after hostOps3 W main_v28) = v1 (W main_arg15) :=
  row_of (by simp only [hostOps3]; after_results; rfl)
theorem h3_b2 : r1 (StableHlo.after hostOps3 W main_v29) = v1 (W main_arg17) :=
  row_of (by simp only [hostOps3]; after_results; rfl)
theorem h3_linb : r1 (StableHlo.after hostOps3 W main_v30) = v1 (W main_arg19) :=
  row_of (by simp only [hostOps3]; after_results; rfl)
theorem h3_gamma : r1 (StableHlo.after hostOps3 W main_v31) = v1 (W main_arg20) :=
  row_of (by simp only [hostOps3]; after_results; rfl)
theorem h3_beta : r1 (StableHlo.after hostOps3 W main_v32) = v1 (W main_arg21) :=
  row_of (by simp only [hostOps3]; after_results; rfl)

theorem h4_mean : r1 (StableHlo.after hostOps4 W main_v35) = mean (r1 (W main_v33_1)) :=
  mean_of (by simp only [hostOps4]; after_results)
theorem h4_istd : r1 (StableHlo.after hostOps4 W main_v42)
    = istd (varK (r1 (W main_v33_1)) (r1 (W main_v33_2))) :=
  istd_of (by simp only [hostOps4]; after_results)

abbrev wr0 : List (Ref sig .tc) := [main_v0, main_v1, main_cst, main_v2, main_v3, main_v4, main_v5, main_v6, main_v7, main_v8, main_v9, main_v10]
abbrev wr1 : List (Ref sig .tc) := [main_v12, main_v13, main_v14, main_v15, main_v16]
abbrev wr2 : List (Ref sig .tc) := [main_cst_0, main_v18, main_v19, main_cst_1, main_v20, main_v21, main_v22, main_v23, main_cst_2, main_v24, main_v25, main_v26]
abbrev wr3 : List (Ref sig .tc) := [main_v28, main_v29, main_v30, main_v31, main_v32]
abbrev wr4 : List (Ref sig .tc) := [main_cst_3, main_v34, main_v35, main_cst_4, main_v36, main_v37, main_v38, main_v39, main_cst_5, main_v40, main_v41, main_v42]

theorem keep0 (b : Ref sig .tc) (hb : b ∉ wr0) : StableHlo.after hostOps0 W b = W b :=
  StableHlo.after_of_writes_sub _ W (by simp [wr0]) hb
theorem keep1 (b : Ref sig .tc) (hb : b ∉ wr1) : StableHlo.after hostOps1 W b = W b :=
  StableHlo.after_of_writes_sub _ W (by simp [wr1]) hb
theorem keep2 (b : Ref sig .tc) (hb : b ∉ wr2) : StableHlo.after hostOps2 W b = W b :=
  StableHlo.after_of_writes_sub _ W (by simp [wr2]) hb
theorem keep3 (b : Ref sig .tc) (hb : b ∉ wr3) : StableHlo.after hostOps3 W b = W b :=
  StableHlo.after_of_writes_sub _ W (by simp [wr3]) hb
theorem keep4 (b : Ref sig .tc) (hb : b ∉ wr4) : StableHlo.after hostOps4 W b = W b :=
  StableHlo.after_of_writes_sub _ W (by simp [wr4]) hb

end Cert.KernelIdeal.KHost

end
-- ==== Proof.KChain.lean ====
import proofs.«158783_j47974784696399_1_alg».proof.Proof.Gen.KernelIdeal.Frame
import proofs.«158783_j47974784696399_1_alg».proof.Proof.KHost
import Idealize.ShloMosaic.Lib.Pipeline.Value
import Idealize.ShloMosaic.PureOps.Ideal.Laws

set_option maxRecDepth 16384

noncomputable section

namespace Cert.KernelIdeal.KChain

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Arr Cert.Spec

structure RegionValues : Prop where
  k0_value : ∀ (V : (c : Dev nD) → (b : Ref sig .tc) → Buf (Elt Ideal) ((c : Thread nD τ).loc b)) (c : Dev nD) (n : Fin 50000) (f : Fin 128),
    (dat0 V c).arrAt 5 cfg0.N (ix2 n f)
        = Cert.Spec.combineK (a2 (V c main_arg0)) (a2 (V c main_v4)) (a2 (V c main_v5)) (a2 (V c main_v6)) (r1 (V c main_v10)) n f
  k1_value_h : ∀ (V : (c : Dev nD) → (b : Ref sig .tc) → Buf (Elt Ideal) ((c : Thread nD τ).loc b)) (c : Dev nD) (n : Fin 50000) (f : Fin 128),
    (dat1 V c).arrAt 7 cfg1.N (ix2 n f) = Cert.Spec.hid (a2 (V c main_v11)) (a2 (V c main_arg6)) (r1 (V c main_v12)) (a2 (V c main_arg8)) (r1 (V c main_v13)) n f
  k1_value_sum : ∀ (V : (c : Dev nD) → (b : Ref sig .tc) → Buf (Elt Ideal) ((c : Thread nD τ).loc b)) (c : Dev nD) (j : Fin 1280),
    (dat1 V c).arrAt 8 cfg1.N (ix2 (0 : Fin 1) j) = Cert.Spec.colSum ((Cert.Spec.feat (Cert.Spec.gate (Cert.Spec.hid (a2 (V c main_v11)) (a2 (V c main_arg6)) (r1 (V c main_v12)) (a2 (V c main_arg8)) (r1 (V c main_v13))) (a2 (V c main_arg10)) (r1 (V c main_v14))) (Cert.Spec.hid (a2 (V c main_v11)) (a2 (V c main_arg6)) (r1 (V c main_v12)) (a2 (V c main_arg8)) (r1 (V c main_v13))))) j
  k1_value_sumsq : ∀ (V : (c : Dev nD) → (b : Ref sig .tc) → Buf (Elt Ideal) ((c : Thread nD τ).loc b)) (c : Dev nD) (j : Fin 1280),
    (dat1 V c).arrAt 9 cfg1.N (ix2 (0 : Fin 1) j) = Cert.Spec.colSumSq ((Cert.Spec.feat (Cert.Spec.gate (Cert.Spec.hid (a2 (V c main_v11)) (a2 (V c main_arg6)) (r1 (V c main_v12)) (a2 (V c main_arg8)) (r1 (V c main_v13))) (a2 (V c main_arg10)) (r1 (V c main_v14))) (Cert.Spec.hid (a2 (V c main_v11)) (a2 (V c main_arg6)) (r1 (V c main_v12)) (a2 (V c main_arg8)) (r1 (V c main_v13))))) j
  k2_value : ∀ (V : (c : Dev nD) → (b : Ref sig .tc) → Buf (Elt Ideal) ((c : Thread nD τ).loc b)) (c : Dev nD) (n : Fin 50000) (f : Fin 128),
    (dat2 V c).arrAt 8 cfg2.N (ix2 n f)
        = Cert.Spec.applyBlock (a2 (V c main_v11)) (a2 (V c main_v17_0))
            (Cert.Spec.gate (a2 (V c main_v17_0)) (a2 (V c main_arg10)) (r1 (V c main_v14)))
            (r1 (V c main_v19)) (r1 (V c main_v26)) (r1 (V c main_v15)) (r1 (V c main_v16)) n f
  k3_value_h : ∀ (V : (c : Dev nD) → (b : Ref sig .tc) → Buf (Elt Ideal) ((c : Thread nD τ).loc b)) (c : Dev nD) (n : Fin 50000) (f : Fin 128),
    (dat3 V c).arrAt 7 cfg3.N (ix2 n f) = Cert.Spec.hid (a2 (V c main_v27)) (a2 (V c main_arg14)) (r1 (V c main_v28)) (a2 (V c main_arg16)) (r1 (V c main_v29)) n f
  k3_value_sum : ∀ (V : (c : Dev nD) → (b : Ref sig .tc) → Buf (Elt Ideal) ((c : Thread nD τ).loc b)) (c : Dev nD) (j : Fin 1280),
    (dat3 V c).arrAt 8 cfg3.N (ix2 (0 : Fin 1) j) = Cert.Spec.colSum ((Cert.Spec.feat (Cert.Spec.gate (Cert.Spec.hid (a2 (V c main_v27)) (a2 (V c main_arg14)) (r1 (V c main_v28)) (a2 (V c main_arg16)) (r1 (V c main_v29))) (a2 (V c main_arg18)) (r1 (V c main_v30))) (Cert.Spec.hid (a2 (V c main_v27)) (a2 (V c main_arg14)) (r1 (V c main_v28)) (a2 (V c main_arg16)) (r1 (V c main_v29))))) j
  k3_value_sumsq : ∀ (V : (c : Dev nD) → (b : Ref sig .tc) → Buf (Elt Ideal) ((c : Thread nD τ).loc b)) (c : Dev nD) (j : Fin 1280),
    (dat3 V c).arrAt 9 cfg3.N (ix2 (0 : Fin 1) j) = Cert.Spec.colSumSq ((Cert.Spec.feat (Cert.Spec.gate (Cert.Spec.hid (a2 (V c main_v27)) (a2 (V c main_arg14)) (r1 (V c main_v28)) (a2 (V c main_arg16)) (r1 (V c main_v29))) (a2 (V c main_arg18)) (r1 (V c main_v30))) (Cert.Spec.hid (a2 (V c main_v27)) (a2 (V c main_arg14)) (r1 (V c main_v28)) (a2 (V c main_arg16)) (r1 (V c main_v29))))) j
  k4_value : ∀ (V : (c : Dev nD) → (b : Ref sig .tc) → Buf (Elt Ideal) ((c : Thread nD τ).loc b)) (c : Dev nD) (n : Fin 50000) (f : Fin 128),
    (dat4 V c).arrAt 9 cfg4.N (ix2 n f)
        = Cert.Spec.applyBlock (a2 (V c main_v27)) (a2 (V c main_v33_0))
            (Cert.Spec.gate (a2 (V c main_v33_0)) (a2 (V c main_arg18)) (r1 (V c main_v30)))
            (r1 (V c main_v35)) (r1 (V c main_v42)) (r1 (V c main_v31)) (r1 (V c main_v32)) n f
          + a2 (V c main_v11) n f

variable (m : (ℓ : Loc nD τ sig) → Buf (Elt Ideal) ℓ) (ρ : Dev nD → PrngReg)

abbrev msgs (c : Dev nD) : FVec Ideal S50000x128 .f32 := W1 m ρ c main_v4
abbrev Pa (c : Dev nD) : Params :=
  ⟨a2 (m ((c : Thread nD τ).loc main_arg6)), v1 (m ((c : Thread nD τ).loc main_arg7)), a2 (m ((c : Thread nD τ).loc main_arg8)),
   v1 (m ((c : Thread nD τ).loc main_arg9)), a2 (m ((c : Thread nD τ).loc main_arg10)), v1 (m ((c : Thread nD τ).loc main_arg11)),
   v1 (m ((c : Thread nD τ).loc main_arg12)), v1 (m ((c : Thread nD τ).loc main_arg13))⟩
abbrev Pb (c : Dev nD) : Params :=
  ⟨a2 (m ((c : Thread nD τ).loc main_arg14)), v1 (m ((c : Thread nD τ).loc main_arg15)), a2 (m ((c : Thread nD τ).loc main_arg16)),
   v1 (m ((c : Thread nD τ).loc main_arg17)), a2 (m ((c : Thread nD τ).loc main_arg18)), v1 (m ((c : Thread nD τ).loc main_arg19)),
   v1 (m ((c : Thread nD τ).loc main_arg20)), v1 (m ((c : Thread nD τ).loc main_arg21))⟩

-- Two contents that agree off a family of buffers, and on its members that are no outputs, agree on every buffer outside a list holding the outputs.
theorem keepR {n : ℕ} {arr : Fin n → Ref sig .tc} {out : Fin n → Bool} {X Y : Valuation τ sig (Elt Ideal)} {L : List (Ref sig .tc)}
    (hne : ∀ b, (∀ w, arr w ≠ b) → X b = Y b)
    (hin : ∀ w, out w = false → X (Proc.devRef .tc (arr w)) = Y (Proc.devRef .tc (arr w)))
    (hL : ∀ w, arr w ∉ L → out w = false) (b : Ref sig .tc) (hb : b ∉ L) :
    X b = Y b := by
  by_cases h : ∃ w, arr w = b
  · obtain ⟨w, rfl⟩ := h; exact hin w (hL w hb)
  · exact hne b fun w e => h ⟨w, e⟩

-- The contents at the k-th boundary between the nine segments before the last region.
def Wk (c : Dev nD) : ℕ → Valuation τ sig (Elt Ideal)
  | 0 => W0 m ρ c | 1 => W1 m ρ c | 2 => W2 m ρ c | 3 => W3 m ρ c | 4 => W4 m ρ c
  | 5 => W5 m ρ c | 6 => W6 m ρ c | 7 => W7 m ρ c | 8 => W8 m ρ c | _ => W9 m ρ c

-- The buffers segment k writes.
abbrev wr : ℕ → List (Ref sig .tc)
  | 0 => KHost.wr0 | 1 => [main_v11] | 2 => KHost.wr1 | 3 => [main_v17_0, main_v17_1, main_v17_2] | 4 => KHost.wr2
  | 5 => [main_v27] | 6 => KHost.wr3 | 7 => [main_v33_0, main_v33_1, main_v33_2] | _ => KHost.wr4

theorem step (c : Dev nD) (b : Ref sig .tc) :
    ∀ k, k < 9 → b ∉ wr k → Wk m ρ c (k + 1) b = Wk m ρ c k b
  | 0, _, hb => KHost.keep0 _ b hb
  | 1, _, hb => keepR (W2_of_ne m ρ c) (fun w hin => (W2_arr m ρ c w).trans
      (((dat0 (V1 m ρ) c).arrAt_in w hin _).trans (A_eq0 (V1 m ρ) c w))) (by decide) b hb
  | 2, _, hb => KHost.keep1 _ b hb
  | 3, _, hb => keepR (W4_of_ne m ρ c) (fun w hin => (W4_arr m ρ c w).trans
      (((dat1 (V3 m ρ) c).arrAt_in w hin _).trans (A_eq1 (V3 m ρ) c w))) (by decide) b hb
  | 4, _, hb => KHost.keep2 _ b hb
  | 5, _, hb => keepR (W6_of_ne m ρ c) (fun w hin => (W6_arr m ρ c w).trans
      (((dat2 (V5 m ρ) c).arrAt_in w hin _).trans (A_eq2 (V5 m ρ) c w))) (by decide) b hb
  | 6, _, hb => KHost.keep3 _ b hb
  | 7, _, hb => keepR (W8_of_ne m ρ c) (fun w hin => (W8_arr m ρ c w).trans
      (((dat3 (V7 m ρ) c).arrAt_in w hin _).trans (A_eq3 (V7 m ρ) c w))) (by decide) b hb
  | 8, _, hb => KHost.keep4 _ b hb
  | k + 9, h, _ => absurd h (by omega)

-- A buffer none of the segments i … i + n - 1 writes is at boundary i + n as at boundary i.
theorem carry (c : Dev nD) (b : Ref sig .tc) (i : ℕ) :
    ∀ n, (i + n ≤ 9 ∧ ∀ k < n, b ∉ wr (i + k)) → Wk m ρ c (i + n) b = Wk m ρ c i b
  | 0, _ => rfl
  | n + 1, h => (step m ρ c b (i + n) (by omega) (h.2 n n.lt_succ_self)).trans
      (carry c b i n ⟨by omega, fun k hk => h.2 k (Nat.lt_succ_of_lt hk)⟩)

abbrev OUT0 (c : Dev nD) : Mat 50000 128 :=
  combineK (a2 (W0 m ρ c main_arg0)) (a2 (msgs m ρ c))
    (rows 0 128 (by norm_num) (a2 (W0 m ρ c main_arg4)))
    (rows 128 128 (by norm_num) (a2 (W0 m ρ c main_arg4)))
    (biasK (v1 (W0 m ρ c main_arg5)) (r1 (W0 m ρ c main_arg3))
      (rows 256 64 (by norm_num) (a2 (W0 m ρ c main_arg4))))
abbrev HA (c : Dev nD) : Mat 50000 128 :=
  hid (OUT0 m ρ c) (a2 (W0 m ρ c main_arg6)) (v1 (W0 m ρ c main_arg7))
    (a2 (W0 m ρ c main_arg8)) (v1 (W0 m ρ c main_arg9))
abbrev OA (c : Dev nD) : Mat 50000 1280 :=
  feat (gate (HA m ρ c) (a2 (W0 m ρ c main_arg10)) (v1 (W0 m ρ c main_arg11))) (HA m ρ c)
abbrev OUTA (c : Dev nD) : Mat 50000 128 := blockK (Pa m c) (OUT0 m ρ c)
abbrev HB (c : Dev nD) : Mat 50000 128 :=
  hid (OUTA m ρ c) (a2 (W0 m ρ c main_arg14)) (v1 (W0 m ρ c main_arg15))
    (a2 (W0 m ρ c main_arg16)) (v1 (W0 m ρ c main_arg17))
abbrev OB (c : Dev nD) : Mat 50000 1280 :=
  feat (gate (HB m ρ c) (a2 (W0 m ρ c main_arg18)) (v1 (W0 m ρ c main_arg19))) (HB m ρ c)

section Chain
variable (c : Dev nD)

theorem v1_arg0 : V1 m ρ c main_arg0 = W0 m ρ c main_arg0 := carry m ρ c main_arg0 0 1 (by decide)
theorem v3_arg6 : V3 m ρ c main_arg6 = W0 m ρ c main_arg6 := carry m ρ c main_arg6 0 3 (by decide)
theorem v3_arg8 : V3 m ρ c main_arg8 = W0 m ρ c main_arg8 := carry m ρ c main_arg8 0 3 (by decide)
theorem v3_arg10 : V3 m ρ c main_arg10 = W0 m ρ c main_arg10 := carry m ρ c main_arg10 0 3 (by decide)
theorem v5_arg10 : V5 m ρ c main_arg10 = W0 m ρ c main_arg10 := carry m ρ c main_arg10 0 5 (by decide)
theorem v7_arg14 : V7 m ρ c main_arg14 = W0 m ρ c main_arg14 := carry m ρ c main_arg14 0 7 (by decide)
theorem v7_arg16 : V7 m ρ c main_arg16 = W0 m ρ c main_arg16 := carry m ρ c main_arg16 0 7 (by decide)
theorem v7_arg18 : V7 m ρ c main_arg18 = W0 m ρ c main_arg18 := carry m ρ c main_arg18 0 7 (by decide)
theorem v9_arg18 : V9 m ρ c main_arg18 = W0 m ρ c main_arg18 := carry m ρ c main_arg18 0 9 (by decide)

theorem v3_v12 : r1 (V3 m ρ c main_v12) = v1 (W0 m ρ c main_arg7) :=
  (KHost.h1_b1 (W2 m ρ c)).trans (congrArg v1 (carry m ρ c main_arg7 0 2 (by decide)))
theorem v3_v13 : r1 (V3 m ρ c main_v13) = v1 (W0 m ρ c main_arg9) :=
  (KHost.h1_b2 (W2 m ρ c)).trans (congrArg v1 (carry m ρ c main_arg9 0 2 (by decide)))
theorem v3_v14 : r1 (V3 m ρ c main_v14) = v1 (W0 m ρ c main_arg11) :=
  (KHost.h1_linb (W2 m ρ c)).trans (congrArg v1 (carry m ρ c main_arg11 0 2 (by decide)))
theorem v5_v14 : r1 (V5 m ρ c main_v14) = v1 (W0 m ρ c main_arg11) :=
  (congrArg r1 (carry m ρ c main_v14 3 2 (by decide))).trans (v3_v14 m ρ c)
theorem v5_v15 : r1 (V5 m ρ c main_v15) = v1 (W0 m ρ c main_arg12) :=
  (congrArg r1 (carry m ρ c main_v15 3 2 (by decide))).trans ((KHost.h1_gamma (W2 m ρ c)).trans (congrArg v1 (carry m ρ c main_arg12 0 2 (by decide))))
theorem v5_v16 : r1 (V5 m ρ c main_v16) = v1 (W0 m ρ c main_arg13) :=
  (congrArg r1 (carry m ρ c main_v16 3 2 (by decide))).trans ((KHost.h1_beta (W2 m ρ c)).trans (congrArg v1 (carry m ρ c main_arg13 0 2 (by decide))))
theorem v7_v28 : r1 (V7 m ρ c main_v28) = v1 (W0 m ρ c main_arg15) :=
  (KHost.h3_b1 (W6 m ρ c)).trans (congrArg v1 (carry m ρ c main_arg15 0 6 (by decide)))
theorem v7_v29 : r1 (V7 m ρ c main_v29) = v1 (W0 m ρ c main_arg17) :=
  (KHost.h3_b2 (W6 m ρ c)).trans (congrArg v1 (carry m ρ c main_arg17 0 6 (by decide)))
theorem v7_v30 : r1 (V7 m ρ c main_v30) = v1 (W0 m ρ c main_arg19) :=
  (KHost.h3_linb (W6 m ρ c)).trans (congrArg v1 (carry m ρ c main_arg19 0 6 (by decide)))
theorem v9_v30 : r1 (V9 m ρ c main_v30) = v1 (W0 m ρ c main_arg19) :=
  (congrArg r1 (carry m ρ c main_v30 7 2 (by decide))).trans (v7_v30 m ρ c)
theorem v9_v31 : r1 (V9 m ρ c main_v31) = v1 (W0 m ρ c main_arg20) :=
  (congrArg r1 (carry m ρ c main_v31 7 2 (by decide))).trans ((KHost.h3_gamma (W6 m ρ c)).trans (congrArg v1 (carry m ρ c main_arg20 0 6 (by decide))))
theorem v9_v32 : r1 (V9 m ρ c main_v32) = v1 (W0 m ρ c main_arg21) :=
  (congrArg r1 (carry m ρ c main_v32 7 2 (by decide))).trans ((KHost.h3_beta (W6 m ρ c)).trans (congrArg v1 (carry m ρ c main_arg21 0 6 (by decide))))

variable (R : RegionValues)
include R

theorem w2_v11 : a2 (V2 m ρ c main_v11) = OUT0 m ρ c := by
  funext n f
  refine (congrFun (W2_arr m ρ c 5) (ix2 n f)).trans ((R.k0_value (V1 m ρ) c n f).trans ?_)
  rw [v1_arg0 m ρ c, KHost.h0_wx (W0 m ρ c), KHost.h0_wm (W0 m ρ c), KHost.h0_bias (W0 m ρ c)]
theorem v3_v11 : a2 (V3 m ρ c main_v11) = OUT0 m ρ c :=
  (congrArg a2 (carry m ρ c main_v11 2 1 (by decide))).trans (w2_v11 m ρ c R)
theorem v5_v11 : a2 (V5 m ρ c main_v11) = OUT0 m ρ c :=
  (congrArg a2 (carry m ρ c main_v11 2 3 (by decide))).trans (w2_v11 m ρ c R)
theorem v9_v11 : a2 (V9 m ρ c main_v11) = OUT0 m ρ c :=
  (congrArg a2 (carry m ρ c main_v11 2 7 (by decide))).trans (w2_v11 m ρ c R)

theorem w4_v17_0 : a2 (V4 m ρ c main_v17_0) = HA m ρ c := by
  funext n f
  refine (congrFun (W4_arr m ρ c 7) (ix2 n f)).trans ((R.k1_value_h (V3 m ρ) c n f).trans ?_)
  rw [v3_v11 m ρ c R, v3_arg6 m ρ c, v3_v12 m ρ c, v3_arg8 m ρ c, v3_v13 m ρ c]
theorem w4_v17_1 : r1 (V4 m ρ c main_v17_1) = colSum (OA m ρ c) := by
  funext j
  refine (congrFun (W4_arr m ρ c 8) (ix2 (0 : Fin 1) j)).trans ((R.k1_value_sum (V3 m ρ) c j).trans ?_)
  rw [v3_v11 m ρ c R, v3_arg6 m ρ c, v3_v12 m ρ c, v3_arg8 m ρ c, v3_v13 m ρ c, v3_arg10 m ρ c, v3_v14 m ρ c]
theorem w4_v17_2 : r1 (V4 m ρ c main_v17_2) = colSumSq (OA m ρ c) := by
  funext j
  refine (congrFun (W4_arr m ρ c 9) (ix2 (0 : Fin 1) j)).trans ((R.k1_value_sumsq (V3 m ρ) c j).trans ?_)
  rw [v3_v11 m ρ c R, v3_arg6 m ρ c, v3_v12 m ρ c, v3_arg8 m ρ c, v3_v13 m ρ c, v3_arg10 m ρ c, v3_v14 m ρ c]

theorem v5_v17_0 : a2 (V5 m ρ c main_v17_0) = HA m ρ c :=
  (congrArg a2 (carry m ρ c main_v17_0 4 1 (by decide))).trans (w4_v17_0 m ρ c R)
theorem v5_v19 : r1 (V5 m ρ c main_v19) = mean (colSum (OA m ρ c)) :=
  (KHost.h2_mean (W4 m ρ c)).trans (congrArg mean (w4_v17_1 m ρ c R))
theorem v5_v26 : r1 (V5 m ρ c main_v26) = istd (varK (colSum (OA m ρ c)) (colSumSq (OA m ρ c))) :=
  (KHost.h2_istd (W4 m ρ c)).trans (by rw [w4_v17_1 m ρ c R, w4_v17_2 m ρ c R])

theorem w6_v27 : a2 (V6 m ρ c main_v27) = OUTA m ρ c := by
  funext n f
  refine (congrFun (W6_arr m ρ c 8) (ix2 n f)).trans ((R.k2_value (V5 m ρ) c n f).trans ?_)
  rw [v5_v11 m ρ c R, v5_v17_0 m ρ c R, v5_arg10 m ρ c, v5_v14 m ρ c, v5_v19 m ρ c R, v5_v26 m ρ c R,
    v5_v15 m ρ c, v5_v16 m ρ c]
  rfl
theorem v7_v27 : a2 (V7 m ρ c main_v27) = OUTA m ρ c :=
  (congrArg a2 (carry m ρ c main_v27 6 1 (by decide))).trans (w6_v27 m ρ c R)
theorem v9_v27 : a2 (V9 m ρ c main_v27) = OUTA m ρ c :=
  (congrArg a2 (carry m ρ c main_v27 6 3 (by decide))).trans (w6_v27 m ρ c R)

theorem w8_v33_0 : a2 (V8 m ρ c main_v33_0) = HB m ρ c := by
  funext n f
  refine (congrFun (W8_arr m ρ c 7) (ix2 n f)).trans ((R.k3_value_h (V7 m ρ) c n f).trans ?_)
  rw [v7_v27 m ρ c R, v7_arg14 m ρ c, v7_v28 m ρ c, v7_arg16 m ρ c, v7_v29 m ρ c]
theorem w8_v33_1 : r1 (V8 m ρ c main_v33_1) = colSum (OB m ρ c) := by
  funext j
  refine (congrFun (W8_arr m ρ c 8) (ix2 (0 : Fin 1) j)).trans ((R.k3_value_sum (V7 m ρ) c j).trans ?_)
  rw [v7_v27 m ρ c R, v7_arg14 m ρ c, v7_v28 m ρ c, v7_arg16 m ρ c, v7_v29 m ρ c, v7_arg18 m ρ c, v7_v30 m ρ c]
theorem w8_v33_2 : r1 (V8 m ρ c main_v33_2) = colSumSq (OB m ρ c) := by
  funext j
  refine (congrFun (W8_arr m ρ c 9) (ix2 (0 : Fin 1) j)).trans ((R.k3_value_sumsq (V7 m ρ) c j).trans ?_)
  rw [v7_v27 m ρ c R, v7_arg14 m ρ c, v7_v28 m ρ c, v7_arg16 m ρ c, v7_v29 m ρ c, v7_arg18 m ρ c, v7_v30 m ρ c]

theorem v9_v33_0 : a2 (V9 m ρ c main_v33_0) = HB m ρ c :=
  (congrArg a2 (carry m ρ c main_v33_0 8 1 (by decide))).trans (w8_v33_0 m ρ c R)
theorem v9_v35 : r1 (V9 m ρ c main_v35) = mean (colSum (OB m ρ c)) :=
  (KHost.h4_mean (W8 m ρ c)).trans (congrArg mean (w8_v33_1 m ρ c R))
theorem v9_v42 : r1 (V9 m ρ c main_v42) = istd (varK (colSum (OB m ρ c)) (colSumSq (OB m ρ c))) :=
  (KHost.h4_istd (W8 m ρ c)).trans (by rw [w8_v33_1 m ρ c R, w8_v33_2 m ρ c R])

end Chain

theorem result (R : RegionValues) (c : Dev nD) (n : Fin 50000) (f : Fin 128) :
    W10 m ρ c main_v43 (ix2 n f)
      = resK (a2 (m ((c : Thread nD τ).loc main_arg0))) (a2 (msgs m ρ c)) (r1 (m ((c : Thread nD τ).loc main_arg3)))
          (a2 (m ((c : Thread nD τ).loc main_arg4))) (v1 (m ((c : Thread nD τ).loc main_arg5))) (Pa m c) (Pb m c) n f := by
  refine (congrFun (W10_arr m ρ c 9) (ix2 n f)).trans ((R.k4_value (V9 m ρ) c n f).trans ?_)
  rw [v9_v27 m ρ c R, v9_v33_0 m ρ c R, v9_arg18 m ρ c, v9_v30 m ρ c, v9_v35 m ρ c R, v9_v42 m ρ c R,
    v9_v31 m ρ c, v9_v32 m ρ c, v9_v11 m ρ c R]
  rfl

theorem msgs_eq (c : Dev nD) :
    msgs m ρ c = Host.scatterAdd scatter_S50000x128_S800000x1_S800000x128_1_0_0_1
      (broadcastInDim S50000x128 ![] bcast_S_S50000x128 (constant S_ .f32 0x00000000#32))
      (broadcastInDim S800000x1 ![0] bcast_S800000_S800000x1_0
        (shapeCast S800000 (extractStridedSlice S1x800000 ![0, 0] (m ((c : Thread nD τ).loc main_arg1)) slices_S2x800000_S1x800000_0_0) shapeCasts_S1x800000_S800000))
      (m ((c : Thread nD τ).loc main_arg2)) := by
  show StableHlo.after (hostOps0) (W0 m ρ c) main_v4 = _
  dsimp only [hostOps0]
  after_results
  rfl

end Cert.KernelIdeal.KChain

end
-- ==== Proof.LibRowOps.lean ====
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, Ideal.multiReduction_add_single]
  refine Finset.sum_congr rfl fun k _ => congrArg src (funext fun ax => Fin.ext ?_)
  match ax with
  | ⟨0, _⟩ => rfl
  | ⟨1, _⟩ => rfl

theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (D.lhsIdx_val_of_single rfl _ _).trans hk)
  have er : D.rhsIdx (ix2 p c) ((contrEquiv1 D K rfl rfl).symm k) = ix2 k c := funext fun ax => Fin.ext (by
    match ax with
    | ⟨0, _⟩ => exact (D.rhsIdx_val_of_single rfl _ _).trans hk
    | ⟨1, _⟩ => exact r1 _ _)
  rw [el, er]

end Cert.RowOps

end
-- ==== Proof.NormRegion.lean ====
import proofs.«158783_j47974784696399_1_alg».proof.Proof.Gen.KernelIdeal.Frame
import proofs.«158783_j47974784696399_1_alg».proof.Proof.Spec
import proofs.«158783_j47974784696399_1_alg».proof.Proof.LibRowOps
import proofs.«158783_j47974784696399_1_alg».proof.Proof.Arr
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NormRegion

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Arr

theorem negInf_eq_bot : (FloatOps.ofBits (F := Ideal) .f32 0xFF800000#32 : EReal) = ⊥ := by
  show Ideal.ofBits .f32 0xFF800000#32 = ⊥
  simp [Ideal.ofBits, Ideal.ieee]

-- the row maximum from -∞, kept as a column and spread back over the row
def rowMaxV (z : FVec Ideal S1000x10 .f32) (hφ : FKind.Formats .f32) (hacc : (0xFF800000#32 : BitVec 32) = FKind.maximumf.neutral .f32 hφ) :
    FVec Ideal S1000x10 .f32 :=
  broadcastTo S1000x10 (shapeCast S1000x1 (maximumf (broadcast S1000 (FloatOps.ofBits (F := Ideal) .f32 0xFF800000#32))
    (multiReduction .maximumf [1] S1000 z 0xFF800000#32 reduces_S1000x10_S1000 hφ hacc)) shapeCasts_S1000_S1000x1) broadcasts_S1000x1_S1000x10

theorem rowMaxV_apply (z : FVec Ideal S1000x10 .f32) (hφ : FKind.Formats .f32)
    (hacc : (0xFF800000#32 : BitVec 32) = FKind.maximumf.neutral .f32 hφ) (p : Fin 1000) (g : Fin 10) :
    rowMaxV z hφ hacc (ix2 p g) = Cert.Spec.rowMax (fun g' => z (ix2 p g')) := by
  unfold rowMaxV
  rw [Cert.RowOps.broadcastTo_a1_ab_apply, Cert.RowOps.shapeCast_a_a1_apply, maximumf_apply, broadcast_apply,
    Ideal.multiReduction_maximumf_single, negInf_eq_bot, max_bot_left]
  have e : (z ∘ reduces_S1000x10_S1000.lift (ix1 p)) = fun g' : Fin 10 => z (ix2 p g') := funext fun k =>
    congrArg z (funext fun ax => Fin.ext (by
      match ax with
      | ⟨0, _⟩ => rfl
      | ⟨1, _⟩ => rfl))
  rw [e]
  rfl

theorem softmax_apply (z : FVec Ideal S1000x10 .f32) (hφ : FKind.Formats .f32)
    (hacc : (0xFF800000#32 : BitVec 32) = FKind.maximumf.neutral .f32 hφ)
    (hacc0 : (0x00000000#32 : BitVec 32) = FKind.add.neutral .f32 hφ) (p : Fin 1000) (g : Fin 10) :
    divf (exp (subf z (rowMaxV z hφ hacc)))
      (broadcastTo S1000x10 (shapeCast S1000x1 (multiReduction .add [1] S1000 (exp (subf z (rowMaxV z hφ hacc))) 0x00000000#32
        reduces_S1000x10_S1000 hφ hacc0) shapeCasts_S1000_S1000x1) broadcasts_S1000x1_S1000x10) (ix2 p g)
      = Cert.Spec.smax (fun g' => z (ix2 p g')) g := by
  rw [divf_apply, Cert.RowOps.rowSum_spread_apply]
  unfold Cert.Spec.smax
  refine congrArg₂ Ideal.div ?_ (Finset.sum_congr rfl fun k _ => ?_) <;>
    (show Ideal.exp (z _ - _) = _; rw [rowMaxV_apply])

section Body

variable (x0 x1 : Vec Ideal S1000x128 .f32) (x2 : Vec Ideal S128x10 .f32) (x3 : Vec Ideal S1x10 .f32)
  (mu iv ga be : Vec Ideal S1x1280 .f32) (p : Fin 1000) (f : Fin 128) (g : Fin 10)

theorem pay1_apply : k2_pay1 (F := Ideal) x0 (ix2 p f) = x0 (ix2 p f) := by
  unfold k2_pay1
  rw [shapeCast_self]

-- the gate of a block: the shifted softmax of each row's logits
theorem pay2_apply : k2_pay2 (F := Ideal) x0 x2 x3 (ix2 p g) = Cert.Spec.gate (a2 x0) (a2 x2) (r1 x3) p g := by
  unfold k2_pay2
  refine (softmax_apply _ _ _ _ p g).trans (congrArg (fun z => Cert.Spec.smax z g) (funext fun g' => ?_))
  rw [addf_apply, Cert.RowOps.rowParam_spread_apply]
  refine congrArg₂ (· + ·) ((Cert.RowOps.matmul_apply _ none _ _ p g').trans (Finset.sum_congr rfl fun k _ => ?_)) rfl
  rw [truncf_apply, truncf_apply, pay1_apply]
  rfl

-- a column of the gate spread over the 128 channels and multiplied into a block
theorem gateScaled_apply (s : FVec Ideal S1000x10 .f32) (y : FVec Ideal S1000x128 .f32) (o : Nat) (h : S1000x10.Slices ![0, o] S1000x1)
    (hg : g.val = o) :
    mulf (broadcastTo S1000x128 (extractStridedSlice S1000x1 ![0, o] s h) broadcasts_S1000x1_S1000x128) y (ix2 p f)
      = s (ix2 p g) * y (ix2 p f) := by
  rw [mulf_apply, Cert.RowOps.broadcastTo_a1_ab_apply, slice2_axis1_apply o s h p 0 g (by rw [hg]; rfl)]

-- piece g of the grouped features is the gate's column g times the perceptron output
theorem pieces_apply :
    ![k2_pay3 (F := Ideal) x0 x2 x3, k2_pay4 x0 x2 x3, k2_pay5 x0 x2 x3, k2_pay6 x0 x2 x3, k2_pay7 x0 x2 x3, k2_pay8 x0 x2 x3,
        k2_pay9 x0 x2 x3, k2_pay10 x0 x2 x3, k2_pay11 x0 x2 x3,
        mulf (broadcastTo S1000x128 (k2_pay12 x0 x2 x3) broadcasts_S1000x1_S1000x128) (k2_pay1 x0)] g (ix2 p f)
      = Cert.Spec.gate (a2 x0) (a2 x2) (r1 x3) p g * x0 (ix2 p f) := by
  refine Eq.trans ?_ (congrArg₂ (· * ·) (pay2_apply x0 x2 x3 p g) (pay1_apply x0 p f))
  fin_cases g <;> exact gateScaled_apply p f _ (k2_pay2 x0 x2 x3) (k2_pay1 x0) _ (by decide) rfl

-- the ten column bands of a [1000, 1280] vector added up from zero
theorem groupSum_apply (w : FVec Ideal S1000x1280 .f32) :
    (addf (addf (addf (addf (addf (addf (addf (addf (addf (addf (broadcast S1000x128 (Scalar.ofBits (F := Ideal) .f32 0x00000000#32)) (extractStridedSlice S1000x128 ![0, 0] w slices_S1000x1280_o0_0_S1000x128)) (extractStridedSlice S1000x128 ![0, 128] w slices_S1000x1280_o0_128_S1000x128)) (extractStridedSlice S1000x128 ![0, 256] w slices_S1000x1280_o0_256_S1000x128)) (extractStridedSlice S1000x128 ![0, 384] w slices_S1000x1280_o0_384_S1000x128)) (extractStridedSlice S1000x128 ![0, 512] w slices_S1000x1280_o0_512_S1000x128)) (extractStridedSlice S1000x128 ![0, 640] w slices_S1000x1280_o0_640_S1000x128)) (extractStridedSlice S1000x128 ![0, 768] w slices_S1000x1280_o0_768_S1000x128)) (extractStridedSlice S1000x128 ![0, 896] w slices_S1000x1280_o0_896_S1000x128)) (extractStridedSlice S1000x128 ![0, 1024] w slices_S1000x1280_o0_1024_S1000x128)) (extractStridedSlice S1000x128 ![0, 1152] w slices_S1000x1280_o0_1152_S1000x128)) (ix2 p f)
      = ∑ g : Fin 10, w (ix2 p (Cert.Spec.jOf g f)) := by
  have e (o : Nat) (h : S1000x1280.Slices ![0, o] S1000x128) (g : Fin 10) (hg : g.val * 128 = o) :
      extractStridedSlice S1000x128 ![0, o] w h (ix2 p f) = w (ix2 p (Cert.Spec.jOf g f)) :=
    slice2_axis1_apply o w h p f (Cert.Spec.jOf g f) (by rw [← hg]; rfl)
  simp only [addf_apply, broadcast_apply]
  rw [e 0 _ 0 rfl, e 128 _ 1 rfl, e 256 _ 2 rfl, e 384 _ 3 rfl, e 512 _ 4 rfl, e 640 _ 5 rfl, e 768 _ 6 rfl, e 896 _ 7 rfl,
    e 1024 _ 8 rfl, e 1152 _ 9 rfl, show (FloatOps.ofBits (F := Ideal) .f32 0x00000000#32 : EReal) = 0 from Ideal.ofBits_zero_f32]
  simp only [Fin.sum_univ_castSucc, Fin.sum_univ_zero]
  rfl

theorem pay13_apply (v1 y0 y1 y2 y3 y4 y5 y6 y7 y8 : FVec Ideal S1000x128 .f32) (v48 : FVec Ideal S1000x1 .f32) :
    k2_pay13 (F := Ideal) v1 y0 y1 y2 y3 y4 y5 y6 y7 y8 v48 mu iv ga be x1 (ix2 p f)
      = x1 (ix2 p f) + (v1 (ix2 p f) + Cert.Spec.lam * ∑ g : Fin 10,
          ((![y0, y1, y2, y3, y4, y5, y6, y7, y8, mulf (broadcastTo S1000x128 v48 broadcasts_S1000x1_S1000x128) v1] g (ix2 p f)
            - r1 mu (Cert.Spec.jOf g f)) * r1 iv (Cert.Spec.jOf g f) * r1 ga (Cert.Spec.jOf g f) + r1 be (Cert.Spec.jOf g f))) := by
  unfold k2_pay13
  rw [addf_apply, shapeCast_self, addf_apply, mulf_apply, broadcast_apply, groupSum_apply]
  refine congrArg₂ (· + ·) rfl (congrArg₂ (· + ·) rfl (congrArg₂ (· * ·) rfl (Finset.sum_congr rfl fun g _ => ?_)))
  rw [addf_apply, mulf_apply, mulf_apply, subf_apply, Cert.RowOps.rowParam_spread_apply, Cert.RowOps.rowParam_spread_apply,
    Cert.RowOps.rowParam_spread_apply, Cert.RowOps.rowParam_spread_apply]
  have hg := g.isLt
  have hf := f.isLt
  refine congrArg (fun o => (o - r1 mu (Cert.Spec.jOf g f)) * r1 iv (Cert.Spec.jOf g f) * r1 ga (Cert.Spec.jOf g f) + r1 be (Cert.Spec.jOf g f))
    (concatenate_ofFn_apply (t := S1000x1280) (s₁ := S1000x128) (1 : Fin 2)
      ![y0, y1, y2, y3, y4, y5, y6, y7, y8, mulf (broadcastTo S1000x128 v48 broadcasts_S1000x1_S1000x128) v1] _ rfl 128 rfl
      (ix2 p (Cert.Spec.jOf g f)) g (by show (g.val * 128 + f.val) / 128 = g.val; omega) (ix2 p f)
      (by show f.val = (g.val * 128 + f.val) % 128; omega) fun b hb => ?_)
  match b with
  | ⟨0, _⟩ => rfl
  | ⟨1, _⟩ => exact absurd rfl hb

theorem gOf_jOf : Cert.Spec.gOf (Cert.Spec.jOf g f) = g :=
  Fin.ext (by show (g.val * 128 + f.val) / 128 = g.val; have := f.isLt; omega)

theorem fOf_jOf : Cert.Spec.fOf (Cert.Spec.jOf g f) = f :=
  Fin.ext (by show (g.val * 128 + f.val) % 128 = f.val; have := f.isLt; omega)

-- the body of an apply region at an entry: the block's output from the blocks of its inputs and the whole parameter rows
theorem body_apply :
    k2_pay13 (F := Ideal) (k2_pay1 x0) (k2_pay3 x0 x2 x3) (k2_pay4 x0 x2 x3) (k2_pay5 x0 x2 x3) (k2_pay6 x0 x2 x3) (k2_pay7 x0 x2 x3)
        (k2_pay8 x0 x2 x3) (k2_pay9 x0 x2 x3) (k2_pay10 x0 x2 x3) (k2_pay11 x0 x2 x3) (k2_pay12 x0 x2 x3) mu iv ga be x1 (ix2 p f)
      = Cert.Spec.applyBlock (a2 x1) (a2 x0) (Cert.Spec.gate (a2 x0) (a2 x2) (r1 x3)) (r1 mu) (r1 iv) (r1 ga) (r1 be) p f := by
  rw [pay13_apply]
  unfold Cert.Spec.applyBlock Cert.Spec.groupSum Cert.Spec.normed Cert.Spec.feat
  refine congrArg₂ (· + ·) rfl (congrArg₂ (· + ·) (pay1_apply x0 p f) (congrArg₂ (· * ·) rfl (Finset.sum_congr rfl fun g _ => ?_)))
  rw [gOf_jOf, fOf_jOf, pieces_apply]
  rfl

end Body

theorem hz : (![0, 0] : Fin 2 → Nat) = fun _ => 0 := funext fun a => by fin_cases a <;> rfl

-- reading through an index map that moves no coordinate returns the array itself
theorem whole_eq {S : Shape} {α : Type} (X : S.Idx → α) (e : S.Idx → S.Idx) (he : ∀ y a, ((e y a : Fin _) : Nat) = y a) :
    (fun y => X (e y)) = X :=
  funext fun y => congrArg X (funext fun a => Fin.ext (he y a))

-- row p of block t of the rows is row 1000 t + p of the array
def rowAt (t : Nat) (ht : t < 50) (p : Fin 1000) : Fin 50000 := ⟨t * 1000 + p.val, by have := p.isLt; omega⟩

theorem rows_emb (e : S1000x128.Idx → S50000x128.Idx) (i : Fin 2 → Nat) (t : Nat) (ht : t < 50)
    (he : ∀ y a, ((e y a : Fin _) : Nat) = i a * S1000x128.size a + y a) (hi : ∀ a, i a = ![t, 0] a) (p : Fin 1000) (k : Fin 128) :
    e (ix2 p k) = ix2 (rowAt t ht p) k :=
  Shape.idx_ext₂ (by rw [he, hi]; rfl) (by rw [he, hi]; show 0 * 128 + k.val = k.val; omega)

-- fifty blocks of 1000 rows cover the 50000 rows
theorem rows_lt (i : S50000x128.Idx) : (i 0).val / 1000 < 50 := by have : (i 0).val < 50000 := (i 0).isLt; omega

theorem rows_cover (i : S50000x128.Idx) (ix : Fin 2 → Nat) (h : ∀ a, ix a = ![(i 0).val / 1000, 0] a) (a : Fin 2) :
    ix a * S1000x128.size a ≤ (i a).val ∧ (i a).val < ix a * S1000x128.size a + S1000x128.size a := by
  have hi1 : (i 1).val < 128 := (i 1).isLt
  rw [h]
  match a with
  | ⟨0, _⟩ => show (i 0).val / 1000 * 1000 ≤ (i 0).val ∧ (i 0).val < (i 0).val / 1000 * 1000 + 1000; omega
  | ⟨1, _⟩ => show 0 * 128 ≤ (i 1).val ∧ (i 1).val < 0 * 128 + 128; omega

end Cert.KernelIdeal.NormRegion

end
-- ==== Proof.K0.lean ====
import proofs.«158783_j47974784696399_1_alg».proof.Proof.Gen.KernelIdeal.Frame
import proofs.«158783_j47974784696399_1_alg».proof.Proof.Spec
import proofs.«158783_j47974784696399_1_alg».proof.Proof.LibRowOps
import proofs.«158783_j47974784696399_1_alg».proof.Proof.Arr
import proofs.«158783_j47974784696399_1_alg».proof.Proof.NormRegion
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.K0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Arr
open Cert.KernelIdeal.NormRegion

variable (V : (c : Dev nD) → (b : Ref sig .tc) → Buf (Elt Ideal) ((c : Thread nD τ).loc b))

theorem cmp_one_self (d : EReal) : FloatOps.cmpf (F := Ideal) (φ := .f32) .one d d = 0#1 := by
  show Ideal.cmp .one d d = 0#1
  simp [Ideal.cmp]

-- the select's condition compares a value with itself, so the overflow-safe operand max u 0 + log (1 + e^(-|u|)) is taken
theorem softplus_apply (u : FVec Ideal S1000x128 .f32) (i : S1000x128.Idx) :
    select (cmpf .one (subf u (broadcast S1000x128 (Scalar.ofBits .f32 0x00000000#32))) (subf u (broadcast S1000x128 (Scalar.ofBits .f32 0x00000000#32))))
      (addf u (broadcast S1000x128 (Scalar.ofBits .f32 0x00000000#32)))
      (addf (maximumf u (broadcast S1000x128 (Scalar.ofBits .f32 0x00000000#32)))
        (log1p (exp (subf (broadcast S1000x128 (Scalar.ofBits .f32 0x00000000#32)) (absf (subf u (broadcast S1000x128 (Scalar.ofBits .f32 0x00000000#32)))))))) i
      = Cert.Spec.sp (u i) := by
  rw [select_apply, cmpf_apply, cmp_one_self, select_zero]
  show max (u i) (Ideal.ofBits .f32 0x00000000#32) + Ideal.log1p (Ideal.exp (Ideal.ofBits .f32 0x00000000#32
    - max (u i - Ideal.ofBits .f32 0x00000000#32) (-(u i - Ideal.ofBits .f32 0x00000000#32)))) = _
  rw [Ideal.ofBits_zero_f32, sub_zero, zero_sub]
  rfl

theorem prod_apply (x : Vec Ideal S1000x128 .f32) (W : Vec Ideal S128x128 .f32) (p : Fin 1000) (q : Fin 128) :
    matmul (F := Ideal) dot_S1000x128_S128x128_S1000x128_1_0_0_1_n_n none (truncf .bf16 x bitsLt_bf16_f32)
        (truncf .bf16 (shapeCast S128x128 W shapeCasts_S128x128_S128x128) bitsLt_bf16_f32) (constant S1000x128 .f32 0x00000000#32) (ix2 p q)
      = Cert.Spec.mm (a2 x) (a2 W) p q := by
  refine (Cert.RowOps.matmul_apply _ none _ _ p q).trans ?_
  rw [shapeCast_self]
  rfl

theorem out_apply (x ms : Vec Ideal S1000x128 .f32) (Wx Wm : Vec Ideal S128x128 .f32) (b : Vec Ideal S1x128 .f32) (p : Fin 1000) (q : Fin 128) :
    out0_5 (F := Ideal) x ms Wx Wm b (ix2 p q) = Cert.Spec.combineK (a2 x) (a2 ms) (a2 Wx) (a2 Wm) (r1 b) p q := by
  unfold out0_5
  rw [View.canon_unit_zero hz]
  simp only [View.ld_unit_zero (S := S1000x128) hz, View.ld_unit_zero (S := S128x128) hz, View.ld_unit_zero (S := S1x128) hz]
  unfold k0_pay1
  refine (softplus_apply _ (ix2 p q)).trans (congrArg Cert.Spec.sp ?_)
  rw [addf_apply, addf_apply, prod_apply, shapeCast_self (s := S1000x128) ms, prod_apply, Cert.RowOps.rowParam_spread_apply]
  rfl

theorem idx_facts : ∀ t : Fin cfg0.N, ∀ a : Fin 2,
    (win0_0.index t a = ![t.val, 0] a ∧ win0_1.index t a = ![t.val, 0] a ∧ win0_5.index t a = ![t.val, 0] a)
    ∧ win0_2.index t a = 0 ∧ win0_3.index t a = 0 ∧ win0_4.index t a = 0 :=
  (by decide +kernel : ∀ t : Fin grid0.N, _)

def G (c : Dev nD) : S50000x128.Idx → EReal := fun i =>
  Cert.Spec.combineK (a2 (V c main_arg0)) (a2 (V c main_v4)) (a2 (V c main_v5)) (a2 (V c main_v6)) (r1 (V c main_v10)) (i 0) (i 1)

theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  funext j
  obtain ⟨p, q, rfl⟩ : ∃ (p : Fin 1000) (q : Fin 128), j = ix2 p q := ⟨j 0, j 1, eq_ix2 j⟩
  have ht : t.val < 50 := lt_of_lt_of_eq t.isLt N_0
  have h := idx_facts t
  have e0 : a2 (iblk0 V c 0 t) = fun p => a2 (V c main_arg0) (rowAt t.val ht p) := funext fun p => funext fun k =>
    congrArg (V c main_arg0) (rows_emb _ _ _ ht (win0_0.rect_emb_val t) (fun a => (h a).1.1) p k)
  have e1 : a2 (iblk0 V c 1 t) = fun p => a2 (V c main_v4) (rowAt t.val ht p) := funext fun p => funext fun k =>
    congrArg (V c main_v4) (rows_emb _ _ _ ht (win0_1.rect_emb_val t) (fun a => (h a).1.2.1) p k)
  have e2 : (iblk0 V c 2 t : Vec Ideal S128x128 .f32) = V c main_v5 :=
    whole_eq (S := S128x128) (V c main_v5) _ fun y a => win0_2.rect_emb_val_of_index_zero t a (h a).2.1 y
  have e3 : (iblk0 V c 3 t : Vec Ideal S128x128 .f32) = V c main_v6 :=
    whole_eq (S := S128x128) (V c main_v6) _ fun y a => win0_3.rect_emb_val_of_index_zero t a (h a).2.2.1 y
  have e4 : (iblk0 V c 4 t : Vec Ideal S1x128 .f32) = V c main_v10 :=
    whole_eq (S := S1x128) (V c main_v10) _ fun y a => win0_4.rect_emb_val_of_index_zero t a (h a).2.2.2 y
  refine (out_apply (iblk0 V c 0 t) (iblk0 V c 1 t) (iblk0 V c 2 t) (iblk0 V c 3 t) (iblk0 V c 4 t) p q).trans ?_
  rw [e0, e1, e2, e3, e4]
  exact (congrArg (G V c) (rows_emb _ _ _ ht (win0_5.rect_emb_val t) (fun a => (h a).1.2.2) p q)).symm

theorem cover (i : S50000x128.Idx) : ∃ t : Fin cfg0.N, (cfg0.win 5).flush t = true ∧ i ∈ ((cfg0.win 5).blk t).view.set := by
  have ht : (i 0).val / 1000 < cfg0.N := (rows_lt i).trans_eq N_0.symm
  refine ⟨⟨_, ht⟩, flush0_5 _, ?_⟩
  show i ∈ ((View.whole main_v11).slice (win0_5.rect ⟨_, ht⟩)).set
  rw [View.set_slice_whole, Rect.mem_set_unit]
  exact rows_cover i (win0_5.index ⟨_, ht⟩) fun a => (idx_facts _ a).1.2.2

theorem value (c : Dev nD) (n : Fin 50000) (f : Fin 128) :
    (dat0 (F := Ideal) V c).arrAt 5 cfg0.N (ix2 n f)
      = Cert.Spec.combineK (a2 (V c main_arg0)) (a2 (V c main_v4)) (a2 (V c main_v5)) (a2 (V c main_v6)) (r1 (V c main_v10)) n f :=
  congrFun ((dat0 (F := Ideal) V c).arrAt_eq_of_cover 5 (G V c) (fun t _ => flushed_eq V c t) cover) (ix2 n f)

end Cert.KernelIdeal.K0

end
-- ==== Proof.StatRegion.lean ====
import proofs.«158783_j47974784696399_1_alg».proof.Proof.Gen.KernelIdeal.Frame
import proofs.«158783_j47974784696399_1_alg».proof.Proof.Spec
import proofs.«158783_j47974784696399_1_alg».proof.Proof.LibRowOps
import proofs.«158783_j47974784696399_1_alg».proof.Proof.Arr
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stat

open Cert.KernelIdeal Cert.KernelIdeal.Gen Idealize.ShloMosaic Idealize.ShloMosaic.TcCoe Idealize.ShloMosaic.ValueIdx Idealize.SL.Sem
open Cert.Arr

theorem hz : (![0, 0] : Fin 2 → Nat) = fun _ => 0 := funext fun a => by fin_cases a <;> rfl

section Payloads
variable {F : FTy → Type} [FloatOps F] (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32)

abbrev featTile : FVec F S1000x1280 .f32 := k1_pay7 (k1_pay5 x0 x1 x2 x3 x4) (k1_pay6 x0 x1 x2 x3 x4) x5 x6

-- the perceptron tile, and the grouped features' column sums and column sums of squares added to zero rows
abbrev stepA : Vec F S1000x128 .f32 × Vec F S1x1280 .f32 × Vec F S1x1280 .f32 :=
  (k1_pay5 x0 x1 x2 x3 x4, k1_pay1 (featTile x0 x1 x2 x3 x4 x5 x6) (k1_pay8 k1_pay3), k1_pay2 (featTile x0 x1 x2 x3 x4 x5 x6) k1_pay4)

-- the same, the sums added to two given rows
abbrev stepB (xo8 xo9 : Vec F S1x1280 .f32) : Vec F S1000x128 .f32 × Vec F S1x1280 .f32 × Vec F S1x1280 .f32 :=
  (k1_pay5 x0 x1 x2 x3 x4, k1_pay1 (featTile x0 x1 x2 x3 x4 x5 x6) (k1_pay8 xo8), k1_pay2 (featTile x0 x1 x2 x3 x4 x5 x6) xo9)

end Payloads

theorem denseTile_apply {φ : FTy} (lhs : FVec Ideal S1000x128 φ) (W : Vec Ideal S128x128 .f32) (b : Vec Ideal S1x128 .f32)
    (p : Fin 1000) (q : Fin 128) :
    (addf (matmul dot_S1000x128_S128x128_S1000x128_1_0_0_1_n_n none lhs (truncf .bf16 W bitsLt_bf16_f32)
        (constant S1000x128 .f32 0x00000000#32))
      (broadcastTo S1000x128 (shapeCast S1x128 b shapeCasts_S1x128_S1x128) broadcasts_S1x128_S1000x128)) (ix2 p q)
      = (∑ k : Fin 128, lhs (ix2 p k) * W (ix2 k q)) + b (ix2 (0 : Fin 1) q) := by
  refine (addf_apply _ _ _).trans ?_
  refine congrArg₂ (fun x y : EReal => x + y) ?_ ?_
  · exact Cert.RowOps.matmul_apply _ none _ _ p q
  · exact Cert.RowOps.rowParam_spread_apply b _ _ p q

theorem softplus_apply {s : Shape} (v : FVec Ideal s .f32) (i : s.Idx) :
    (select (cmpf .one (subf v (broadcast s (Scalar.ofBits (F := Ideal) .f32 0x00000000#32)))
        (subf v (broadcast s (Scalar.ofBits (F := Ideal) .f32 0x00000000#32))))
      (addf v (broadcast s (Scalar.ofBits (F := Ideal) .f32 0x00000000#32)))
      (addf (maximumf v (broadcast s (Scalar.ofBits (F := Ideal) .f32 0x00000000#32)))
        (log1p (exp (subf (broadcast s (Scalar.ofBits (F := Ideal) .f32 0x00000000#32))
          (absf (subf v (broadcast s (Scalar.ofBits (F := Ideal) .f32 0x00000000#32))))))))) i
      = Cert.Spec.sp (v i) := by
  show Scalar.select (Ideal.cmp .one (v i - Ideal.ofBits .f32 0x00000000#32) (v i - Ideal.ofBits .f32 0x00000000#32))
      (v i + Ideal.ofBits .f32 0x00000000#32)
      (max (v i) (Ideal.ofBits .f32 0x00000000#32) + Ideal.log1p (Ideal.exp (Ideal.ofBits .f32 0x00000000#32
        - max (v i - Ideal.ofBits .f32 0x00000000#32) (-(v i - Ideal.ofBits .f32 0x00000000#32))))) = _
  rw [Ideal.ofBits_zero_f32, sub_zero, zero_sub]
  have hc : Ideal.cmp .one (v i) (v i) = 0#1 := by simp [Ideal.cmp]
  rw [hc, select_zero]
  rfl

theorem pay5_apply (v3 : Vec Ideal S1000x128 .f32) (v6 : Vec Ideal S128x128 .f32) (v9 : Vec Ideal S1x128 .f32)
    (v28 : Vec Ideal S128x128 .f32) (v31 : Vec Ideal S1x128 .f32) (p : Fin 1000) (q : Fin 128) :
    k1_pay5 (F := Ideal) v3 v6 v9 v28 v31 (ix2 p q) = Cert.Spec.hid (a2 v3) (a2 v6) (r1 v9) (a2 v28) (r1 v31) p q := by
  unfold k1_pay5
  refine (denseTile_apply _ v28 v31 p q).trans ?_
  show _ = (∑ k : Fin 128, Cert.Spec.sp ((∑ i : Fin 128, v3 (ix2 p i) * v6 (ix2 i k)) + v9 (ix2 (0 : Fin 1) k)) * v28 (ix2 k q))
    + v31 (ix2 (0 : Fin 1) q)
  refine congrArg (fun x : EReal => x + v31 (ix2 (0 : Fin 1) q)) (Finset.sum_congr rfl fun k _ => ?_)
  refine congrArg (fun x : EReal => x * v28 (ix2 k q)) ?_
  refine (softplus_apply _ (ix2 p k)).trans (congrArg Cert.Spec.sp ?_)
  refine (denseTile_apply _ v6 v9 p k).trans ?_
  rw [shapeCast_self]
  rfl

noncomputable def logitsTile {φ : FTy} (lhs : FVec Ideal S1000x128 φ) (W : Vec Ideal S128x10 .f32) (b : Vec Ideal S1x10 .f32) :
    FVec Ideal S1000x10 .f32 :=
  addf (matmul dot_S1000x128_S128x10_S1000x10_1_0_0_1_n_n none lhs (truncf .bf16 W bitsLt_bf16_f32)
      (constant S1000x10 .f32 0x00000000#32))
    (broadcastTo S1000x10 (shapeCast S1x10 b shapeCasts_S1x10_S1x10) broadcasts_S1x10_S1000x10)

theorem logitsTile_apply {φ : FTy} (lhs : FVec Ideal S1000x128 φ) (W : Vec Ideal S128x10 .f32) (b : Vec Ideal S1x10 .f32)
    (p : Fin 1000) (g : Fin 10) :
    logitsTile lhs W b (ix2 p g) = (∑ k : Fin 128, lhs (ix2 p k) * W (ix2 k g)) + b (ix2 (0 : Fin 1) g) := by
  unfold logitsTile
  refine (addf_apply _ _ _).trans ?_
  refine congrArg₂ (fun x y : EReal => x + y) ?_ ?_
  · exact Cert.RowOps.matmul_apply _ none _ _ p g
  · exact Cert.RowOps.rowParam_spread_apply b _ _ p g

theorem negInfWord : Ideal.ofBits .f32 0xFF800000#32 = ⊥ := by simp [Ideal.ofBits, Ideal.ieee]

theorem rowMaxTile_apply (z : FVec Ideal S1000x10 .f32) (p : Fin 1000) :
    (maximumf (broadcast S1000 (Scalar.ofBits (F := Ideal) .f32 0xFF800000#32))
      (multiReduction .maximumf [1] S1000 z 0xFF800000#32 reduces_S1000x10_S1000 (.inl rfl) rfl)) (ix1 p)
      = Cert.Spec.rowMax (fun g => z (ix2 p g)) := by
  refine (maximumf_apply _ _ _).trans ?_
  refine (congrArg (max (broadcast S1000 (Scalar.ofBits (F := Ideal) .f32 0xFF800000#32) (ix1 p)))
    (Ideal.multiReduction_maximumf_single z 0xFF800000#32 reduces_S1000x10_S1000 (.inl rfl) rfl (ix1 p))).trans ?_
  have hf : (z ∘ reduces_S1000x10_S1000.lift (ix1 p)) = fun g : Fin 10 => z (ix2 p g) :=
    funext fun g => congrArg z (funext fun ax => Fin.ext (by
      match ax with
      | ⟨0, _⟩ => rfl
      | ⟨1, _⟩ => rfl))
  show max (Ideal.ofBits .f32 0xFF800000#32)
      ((Finset.univ : Finset (Fin 10)).fold max (Ideal.ofBits .f32 0xFF800000#32) (z ∘ reduces_S1000x10_S1000.lift (ix1 p)))
    = (Finset.univ : Finset (Fin 10)).sup fun g => z (ix2 p g)
  rw [negInfWord, max_bot_left, hf]
  rfl

noncomputable def shiftTile (z : FVec Ideal S1000x10 .f32) : FVec Ideal S1000x10 .f32 :=
  subf z (broadcastTo S1000x10 (shapeCast S1000x1
    (maximumf (broadcast S1000 (Scalar.ofBits (F := Ideal) .f32 0xFF800000#32))
      (multiReduction .maximumf [1] S1000 z 0xFF800000#32 reduces_S1000x10_S1000 (.inl rfl) rfl))
    shapeCasts_S1000_S1000x1) broadcasts_S1000x1_S1000x10)

theorem shiftTile_apply (z : FVec Ideal S1000x10 .f32) (p : Fin 1000) (g : Fin 10) :
    shiftTile z (ix2 p g) = z (ix2 p g) - Cert.Spec.rowMax (fun g' => z (ix2 p g')) := by
  unfold shiftTile
  refine (subf_apply _ _ _).trans ?_
  rw [Cert.RowOps.broadcastTo_a1_ab_apply, Cert.RowOps.shapeCast_a_a1_apply, rowMaxTile_apply]

noncomputable def smaxTile (z : FVec Ideal S1000x10 .f32) : FVec Ideal S1000x10 .f32 :=
  divf (exp (shiftTile z)) (broadcastTo S1000x10 (shapeCast S1000x1
    (multiReduction .add [1] S1000 (exp (shiftTile z)) 0x00000000#32 reduces_S1000x10_S1000 (.inl rfl) rfl)
    shapeCasts_S1000_S1000x1) broadcasts_S1000x1_S1000x10)

theorem smaxTile_apply (z : FVec Ideal S1000x10 .f32) (p : Fin 1000) (g : Fin 10) :
    smaxTile z (ix2 p g) = Cert.Spec.smax (fun g' => z (ix2 p g')) g := by
  unfold smaxTile
  refine (divf_apply _ _ _).trans ?_
  refine (congrArg (Ideal.div (exp (shiftTile z) (ix2 p g)))
    (Cert.RowOps.rowSum_spread_apply (exp (shiftTile z)) 0x00000000#32 reduces_S1000x10_S1000 (.inl rfl) rfl
      shapeCasts_S1000_S1000x1 broadcasts_S1000x1_S1000x10 p g)).trans ?_
  show Ideal.div (Ideal.exp (shiftTile z (ix2 p g))) (∑ i : Fin 10, Ideal.exp (shiftTile z (ix2 p i))) = _
  simp only [shiftTile_apply]
  rfl

theorem gateSlices (g : Fin 10) : S1000x10.Slices ![0, g.val] S1000x1 :=
  ⟨rfl, fun a => by
    match a with
    | ⟨0, _⟩ => show 0 + 1000 ≤ 1000; omega
    | ⟨1, _⟩ => show g.val + 1 ≤ 10; have := g.isLt; omega⟩

noncomputable def featPiece (s : FVec Ideal S1000x10 .f32) (h : FVec Ideal S1000x128 .f32) (g : Fin 10) : S1000x128.Idx → EReal :=
  mulf (broadcastTo S1000x128 (extractStridedSlice S1000x1 ![0, g.val] s (gateSlices g)) broadcasts_S1000x1_S1000x128) h

theorem featPiece_apply (s : FVec Ideal S1000x10 .f32) (h : FVec Ideal S1000x128 .f32) (g : Fin 10) (p : Fin 1000) (f : Fin 128) :
    featPiece s h g (ix2 p f) = s (ix2 p g) * h (ix2 p f) := by
  unfold featPiece
  refine (mulf_apply _ _ _).trans ?_
  rw [Cert.RowOps.broadcastTo_a1_ab_apply]
  refine congrArg (fun x : EReal => x * h (ix2 p f)) ?_
  exact extractStridedSlice_apply _ s _ (ix2 p (0 : Fin 1)) (ix2 p g) (fun a => by
    match a with
    | ⟨0, _⟩ => show p.val = 0 + p.val; omega
    | ⟨1, _⟩ => show g.val = g.val + 0; omega)

theorem pay7_eq (v34 : FVec Ideal S1000x128 .f32) (v36 : FVec Ideal S1000x128 .bf16) (v37 : Vec Ideal S128x10 .f32)
    (v40 : Vec Ideal S1x10 .f32) :
    k1_pay7 (F := Ideal) v34 v36 v37 v40
      = concatenate S1000x1280 1 (List.ofFn fun g : Fin 10 =>
          (⟨S1000x128, featPiece (smaxTile (logitsTile v36 v37 v40)) v34 g⟩ : (s : Shape) × (s.Idx → EReal)))
          concatenates_S1000x128_S1000x128_S1000x128_S1000x128_S1000x128_S1000x128_S1000x128_S1000x128_S1000x128_S1000x128_S1000x1280_d1 :=
  rfl

theorem pay7_apply (v34 : FVec Ideal S1000x128 .f32) (v36 : FVec Ideal S1000x128 .bf16) (v37 : Vec Ideal S128x10 .f32)
    (v40 : Vec Ideal S1x10 .f32) (p : Fin 1000) (j : Fin 1280) :
    k1_pay7 (F := Ideal) v34 v36 v37 v40 (ix2 p j)
      = Cert.Spec.smax (fun g => (∑ k : Fin 128, v36 (ix2 p k) * v37 (ix2 k g)) + v40 (ix2 (0 : Fin 1) g)) (Cert.Spec.gOf j)
        * v34 (ix2 p (Cert.Spec.fOf j)) := by
  rw [pay7_eq]
  refine (concatenate_ofFn_apply (t := S1000x1280) (s₁ := S1000x128) (1 : Fin 2)
    (fun g : Fin 10 => featPiece (smaxTile (logitsTile v36 v37 v40)) v34 g)
    concatenates_S1000x128_S1000x128_S1000x128_S1000x128_S1000x128_S1000x128_S1000x128_S1000x128_S1000x128_S1000x128_S1000x1280_d1
    rfl 128 rfl (ix2 p j) (Cert.Spec.gOf j) rfl (ix2 p (Cert.Spec.fOf j)) rfl (fun b hb => ?_)).trans ?_
  · match b with
    | ⟨0, _⟩ => rfl
    | ⟨1, _⟩ => exact absurd rfl hb
  · refine (featPiece_apply _ _ _ p _).trans ?_
    refine congrArg (fun x : EReal => x * v34 (ix2 p (Cert.Spec.fOf j))) ?_
    refine (smaxTile_apply _ p _).trans ?_
    exact congrArg (fun z : Cert.Spec.Row 10 => Cert.Spec.smax z (Cert.Spec.gOf j)) (funext fun g => logitsTile_apply v36 v37 v40 p g)

theorem colSumTile_apply (v : FVec Ideal S1000x1280 .f32) (j : Fin 1280) :
    shapeCast S1x1280 (multiReduction .add [0] S1280 v 0x00000000#32 reduces_S1000x1280_S1280 (.inl rfl) rfl)
        shapeCasts_S1280_S1x1280 (ix2 (0 : Fin 1) j)
      = ∑ r : Fin 1000, v (ix2 r j) := by
  refine (shapeCast_apply _ _ (ix2 (0 : Fin 1) j) (ix1 j) ?_).trans ?_
  · rw [Shape.rowMajor_val_one, Shape.rowMajor_val_two]
    show j.val = 0 * 1280 + j.val
    omega
  · refine (Ideal.multiReduction_add_single v 0x00000000#32 reduces_S1000x1280_S1280 (.inl rfl) rfl (ix1 j)).trans ?_
    refine Finset.sum_congr rfl fun r _ => congrArg v (funext fun ax => Fin.ext ?_)
    match ax with
    | ⟨0, _⟩ => rfl
    | ⟨1, _⟩ => rfl

theorem pay1_apply (v85 : FVec Ideal S1000x1280 .f32) (v87 : FVec Ideal S1x1280 .f32) (j : Fin 1280) :
    k1_pay1 (F := Ideal) v85 v87 (ix2 (0 : Fin 1) j) = v87 (ix2 (0 : Fin 1) j) + ∑ r : Fin 1000, v85 (ix2 r j) := by
  unfold k1_pay1
  refine (addf_apply _ _ _).trans ?_
  exact congrArg (fun x : EReal => v87 (ix2 (0 : Fin 1) j) + x) (colSumTile_apply v85 j)

theorem pay2_apply (v85 : FVec Ideal S1000x1280 .f32) (v92 : Vec Ideal S1x1280 .f32) (j : Fin 1280) :
    k1_pay2 (F := Ideal) v85 v92 (ix2 (0 : Fin 1) j)
      = v92 (ix2 (0 : Fin 1) j) + ∑ r : Fin 1000, v85 (ix2 r j) * v85 (ix2 r j) := by
  unfold k1_pay2
  refine (addf_apply _ _ _).trans ?_
  refine congrArg₂ (fun x y : EReal => x + y) ?_ ?_
  · exact congrFun (shapeCast_self v92 _) (ix2 (0 : Fin 1) j)
  · exact colSumTile_apply (mulf v85 v85) j

theorem pay3_apply (j : Fin 1280) : k1_pay3 (F := Ideal) (ix2 (0 : Fin 1) j) = 0 := Ideal.ofBits_zero_f32
theorem pay4_apply (j : Fin 1280) : k1_pay4 (F := Ideal) (ix2 (0 : Fin 1) j) = 0 := Ideal.ofBits_zero_f32

theorem pay8_eq (v : Vec Ideal S1x1280 .f32) : k1_pay8 (F := Ideal) v = v := shapeCast_self v _

theorem hid_row {a a' : ℕ} (out : Cert.Spec.Mat a 128) (out' : Cert.Spec.Mat a' 128) (Wa : Cert.Spec.Mat 128 128)
    (ba : Cert.Spec.Row 128) (Wb : Cert.Spec.Mat 128 128) (bb : Cert.Spec.Row 128) (n : Fin a) (n' : Fin a')
    (h : ∀ i, out n i = out' n' i) (j : Fin 128) :
    Cert.Spec.hid out Wa ba Wb bb n j = Cert.Spec.hid out' Wa ba Wb bb n' j := by
  unfold Cert.Spec.hid Cert.Spec.dense Cert.Spec.mm
  simp only [h]

def rowOf {N : ℕ} (hN : N = 50) (n : ℕ) (h : n < N) (r : Fin 1000) : Fin 50000 :=
  ⟨1000 * n + r.val, by have := r.isLt; omega⟩

def tsum {N : ℕ} (hN : N = 50) (f : Fin 50000 → EReal) (u : ℕ) : EReal :=
  if h : u < N then ∑ r : Fin 1000, f (rowOf hN u h r) else 0

-- fifty tiles of a thousand rows are the fifty thousand rows
theorem sum_tiles {N : ℕ} (hN : N = 50) (f : Fin 50000 → EReal) : ∑ u ∈ Finset.range 50, tsum hN f u = ∑ i : Fin 50000, f i := by
  subst hN
  rw [Finset.sum_range, ← Equiv.sum_comp (finProdFinEquiv (m := 50) (n := 1000)) f, Fintype.sum_prod_type]
  refine Finset.sum_congr rfl fun u _ => ?_
  unfold tsum
  rw [dif_pos u.isLt]
  refine Finset.sum_congr rfl fun r _ => congrArg f (Fin.ext ?_)
  show 1000 * u.val + r.val = r.val + 1000 * u.val
  omega

def rowArr (v : Cert.Spec.Row 1280) : S1x1280.Idx → EReal := fun i => v ⟨(i 1).val, idx2_lt1 i⟩

theorem eq_row (y : S1x1280.Idx) : y = ix2 (0 : Fin 1) (y 1) :=
  (eq_ix2 y).trans (congrArg (fun u : Fin 1 => ix2 u (y 1)) (Fin.fin_one_eq_zero (y 0)))

section Run
variable {N : ℕ} (hN : N = 50)
  (outs : (n : ℕ) → n < N → Vec Ideal S1000x128 .f32 × Vec Ideal S1x1280 .f32 × Vec Ideal S1x1280 .f32)
  (X : (n : ℕ) → n < N → Vec Ideal S1000x128 .f32)
  (Wa : Vec Ideal S128x128 .f32) (ba : Vec Ideal S1x128 .f32) (Wb : Vec Ideal S128x128 .f32) (bb : Vec Ideal S1x128 .f32)
  (Lw : Vec Ideal S128x10 .f32) (Lb : Vec Ideal S1x10 .f32) (A : Cert.Spec.Mat 50000 128)
  (hX : ∀ n h (r : Fin 1000) (q : Fin 128), X n h (ix2 r q) = A (rowOf hN n h r) q)
  (hA : ∀ n h, n % 50 = 0 → outs n h = stepA (X n h) Wa ba Wb bb Lw Lb)
  (hB : ∀ n h, ¬n % 50 = 0 → outs n h = stepB (X n h) Wa ba Wb bb Lw Lb
    (outs (n - 1) (Nat.lt_of_le_of_lt (Nat.sub_le _ _) h)).2.1 (outs (n - 1) (Nat.lt_of_le_of_lt (Nat.sub_le _ _) h)).2.2)

abbrev Hm : Cert.Spec.Mat 50000 128 := Cert.Spec.hid A (a2 Wa) (r1 ba) (a2 Wb) (r1 bb)
abbrev Om : Cert.Spec.Mat 50000 1280 := Cert.Spec.feat (Cert.Spec.gate (Hm Wa ba Wb bb A) (a2 Lw) (r1 Lb)) (Hm Wa ba Wb bb A)

include hX in
theorem hidTile_apply (n h) (r : Fin 1000) (q : Fin 128) :
    k1_pay5 (F := Ideal) (X n h) Wa ba Wb bb (ix2 r q) = Hm Wa ba Wb bb A (rowOf hN n h r) q :=
  (pay5_apply _ _ _ _ _ r q).trans (hid_row _ _ _ _ _ _ r (rowOf hN n h r) (fun i => hX n h r i) q)

include hX in
theorem featTile_apply (n h) (r : Fin 1000) (j : Fin 1280) :
    featTile (F := Ideal) (X n h) Wa ba Wb bb Lw Lb (ix2 r j) = Om Wa ba Wb bb Lw Lb A (rowOf hN n h r) j := by
  refine (pay7_apply _ _ _ _ r j).trans ?_
  show Cert.Spec.smax _ (Cert.Spec.gOf j) * _
    = Cert.Spec.smax (Cert.Spec.dense (Hm Wa ba Wb bb A) (a2 Lw) (r1 Lb) (rowOf hN n h r)) (Cert.Spec.gOf j)
      * Hm Wa ba Wb bb A (rowOf hN n h r) (Cert.Spec.fOf j)
  refine congrArg₂ (fun x y : EReal => x * y)
    (congrArg (fun z : Cert.Spec.Row 10 => Cert.Spec.smax z (Cert.Spec.gOf j)) (funext fun g => ?_))
    (hidTile_apply hN X Wa ba Wb bb A hX n h r (Cert.Spec.fOf j))
  show (∑ k : Fin 128, k1_pay5 (F := Ideal) (X n h) Wa ba Wb bb (ix2 r k) * Lw (ix2 k g)) + Lb (ix2 (0 : Fin 1) g)
    = (∑ k : Fin 128, Hm Wa ba Wb bb A (rowOf hN n h r) k * Lw (ix2 k g)) + Lb (ix2 (0 : Fin 1) g)
  simp only [hidTile_apply hN X Wa ba Wb bb A hX]

-- a row that starts at its first tile's column sums of φ and gains each later tile's holds the sums over the tiles so far
include hX in
theorem acc_eq (buf : (n : ℕ) → n < N → Vec Ideal S1x1280 .f32) (φ : EReal → EReal)
    (h0 : ∀ (h : 0 < N) (j : Fin 1280), buf 0 h (ix2 (0 : Fin 1) j)
      = ∑ r : Fin 1000, φ (featTile (F := Ideal) (X 0 h) Wa ba Wb bb Lw Lb (ix2 r j)))
    (hs : ∀ n (h : n + 1 < N) (j : Fin 1280), buf (n + 1) h (ix2 (0 : Fin 1) j)
      = buf n (Nat.lt_of_succ_lt h) (ix2 (0 : Fin 1) j)
        + ∑ r : Fin 1000, φ (featTile (F := Ideal) (X (n + 1) h) Wa ba Wb bb Lw Lb (ix2 r j))) :
    ∀ n h (j : Fin 1280), buf n h (ix2 (0 : Fin 1) j)
      = ∑ u ∈ Finset.range (n + 1), tsum hN (fun i => φ (Om Wa ba Wb bb Lw Lb A i j)) u
  | 0, h, j => by
    rw [Finset.sum_range_one, h0]
    unfold tsum
    rw [dif_pos h]
    exact Finset.sum_congr rfl fun r _ => congrArg φ (featTile_apply hN X Wa ba Wb bb Lw Lb A hX 0 h r j)
  | n + 1, h, j => by
    rw [Finset.sum_range_succ, ← acc_eq buf φ h0 hs n (Nat.lt_of_succ_lt h) j, hs]
    unfold tsum
    rw [dif_pos h]
    exact congrArg _ (Finset.sum_congr rfl fun r _ => congrArg φ (featTile_apply hN X Wa ba Wb bb Lw Lb A hX (n + 1) h r j))

-- each tile's first component is its rows of the perceptron output; at the last tile the two rows are the column sums and sums of squares over all rows
include hN hX hA hB in
theorem run :
    (∀ n h (r : Fin 1000) (q : Fin 128), (outs n h).1 (ix2 r q) = Hm Wa ba Wb bb A (rowOf hN n h r) q)
    ∧ (∀ n h, n % 50 = 49 → ∀ j : Fin 1280, (outs n h).2.1 (ix2 (0 : Fin 1) j) = Cert.Spec.colSum (Om Wa ba Wb bb Lw Lb A) j)
    ∧ (∀ n h, n % 50 = 49 → ∀ j : Fin 1280, (outs n h).2.2 (ix2 (0 : Fin 1) j) = Cert.Spec.colSumSq (Om Wa ba Wb bb Lw Lb A) j) := by
  have hne : ∀ n, n + 1 < N → ¬(n + 1) % 50 = 0 := fun n h => by omega
  refine ⟨fun n h r q => ?_, fun n h hl j => ?_, fun n h hl j => ?_⟩
  · by_cases h0 : n % 50 = 0
    · rw [hA n h h0]; exact hidTile_apply hN X Wa ba Wb bb A hX n h r q
    · rw [hB n h h0]; exact hidTile_apply hN X Wa ba Wb bb A hX n h r q
  · obtain rfl : n = 49 := by omega
    refine (acc_eq hN X Wa ba Wb bb Lw Lb A hX (fun n h => (outs n h).2.1) (fun x => x) (fun h j => ?_) (fun n h j => ?_) 49 h j).trans
      (sum_tiles hN fun i => Om Wa ba Wb bb Lw Lb A i j)
    · rw [hA 0 h rfl]
      exact (pay1_apply (featTile (X 0 h) Wa ba Wb bb Lw Lb) (k1_pay8 (k1_pay3 (F := Ideal))) j).trans (by rw [pay8_eq, pay3_apply, zero_add])
    · rw [hB (n + 1) h (hne n h)]
      exact (pay1_apply (featTile (X (n + 1) h) Wa ba Wb bb Lw Lb) (k1_pay8 (outs n (Nat.lt_of_succ_lt h)).2.1) j).trans (by rw [pay8_eq])
  · obtain rfl : n = 49 := by omega
    refine (acc_eq hN X Wa ba Wb bb Lw Lb A hX (fun n h => (outs n h).2.2) (fun x => x * x) (fun h j => ?_) (fun n h j => ?_) 49 h j).trans
      (sum_tiles hN fun i => Om Wa ba Wb bb Lw Lb A i j * Om Wa ba Wb bb Lw Lb A i j)
    · rw [hA 0 h rfl]
      exact (pay2_apply (featTile (X 0 h) Wa ba Wb bb Lw Lb) (k1_pay4 (F := Ideal)) j).trans (by rw [pay4_apply, zero_add])
    · rw [hB (n + 1) h (hne n h)]
      exact pay2_apply (featTile (X (n + 1) h) Wa ba Wb bb Lw Lb) (outs n (Nat.lt_of_succ_lt h)).2.2 j

end Run

end Cert.KernelIdeal.Stat

end
-- ==== Proof.K1.lean ====
import proofs.«158783_j47974784696399_1_alg».proof.Proof.StatRegion

set_option maxRecDepth 16384

noncomputable section

namespace Cert.KernelIdeal.K1

open Cert.KernelIdeal Cert.KernelIdeal.Gen Cert.KernelIdeal.Stat Idealize.ShloMosaic Idealize.ShloMosaic.TcCoe Idealize.ShloMosaic.ValueIdx Idealize.SL.Sem
open Idealize.ShloMosaic.Pipeline (Dat Cfg Window)
open Cert.Arr
open Idealize.ShloMosaic.Tactic

section Pieces
variable {F : FTy → Type} [FloatOps F] (c : Dev nD) (i : grid1.Coords) (arg1 : Memref sig .tc .vmem S1000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S1000x128 .f32) (harg8 : arg8.IsWhole) (arg9 : Memref sig .tc .vmem S1x1280 .f32) (harg9 : arg9.IsWhole) (arg10 : Memref sig .tc .vmem S1x1280 .f32) (harg10 : arg10.IsWhole)
  (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32)

theorem piecesA (hc0 : cond1_0 i) :
    (out1_A_7 c i arg1 harg1 arg2 harg2 arg3 harg3 arg4 harg4 arg5 harg5 arg6 harg6 arg7 harg7 arg8 harg8 arg9 harg9 arg10 harg10 hc0 x0 x1 x2 x3 x4 x5 x6, out1_A_8 c i arg1 harg1 arg2 harg2 arg3 harg3 arg4 harg4 arg5 harg5 arg6 harg6 arg7 harg7 arg8 harg8 arg9 harg9 arg10 harg10 hc0 x0 x1 x2 x3 x4 x5 x6, out1_A_9 c i arg1 harg1 arg2 harg2 arg3 harg3 arg4 harg4 arg5 harg5 arg6 harg6 arg7 harg7 arg8 harg8 arg9 harg9 arg10 harg10 hc0 x0 x1 x2 x3 x4 x5 x6) = stepA x0 x1 x2 x3 x4 x5 x6 := by
  unfold stepA out1_A_7 out1_A_8 out1_A_9
  rw [View.read_writes_eq_canon _ _ _ (fun y => cover1_A_7 ..), View.read_writes_eq_canon _ _ _ (fun y => cover1_A_8 ..), View.read_writes_eq_canon _ _ _ (fun y => cover1_A_9 ..)]
  unfold kernelRun1_A
  dsimp only
  sl_unfold_words
  rw [View.canon_unit_zero hz, View.canon_cons_unit_zero (S := S1x1280) hz, View.readCov_unit_zero (S := S1x1280) _ hz, View.canon_cons_unit_zero (S := S1x1280) hz, View.readCov_unit_zero (S := S1x1280) _ hz]
  simp only [View.readAt_eq_ld, harg1.read_unread, harg2.read_unread, harg3.read_unread, harg4.read_unread, harg5.read_unread, harg6.read_unread, harg7.read_unread, View.ld_unit_zero (S := S1000x128) hz, View.ld_unit_zero (S := S128x128) hz, View.ld_unit_zero (S := S1x128) hz, View.ld_unit_zero (S := S128x10) hz, View.ld_unit_zero (S := S1x10) hz]

theorem piecesB (hc0 : ¬cond1_0 i) (xo8 xo9 : Vec F S1x1280 .f32) :
    (out1_B_7 c i arg1 harg1 arg2 harg2 arg3 harg3 arg4 harg4 arg5 harg5 arg6 harg6 arg7 harg7 arg8 harg8 arg9 harg9 arg10 harg10 hc0 x0 x1 x2 x3 x4 x5 x6 xo8 xo9, out1_B_8 c i arg1 harg1 arg2 harg2 arg3 harg3 arg4 harg4 arg5 harg5 arg6 harg6 arg7 harg7 arg8 harg8 arg9 harg9 arg10 harg10 hc0 x0 x1 x2 x3 x4 x5 x6 xo8 xo9, out1_B_9 c i arg1 harg1 arg2 harg2 arg3 harg3 arg4 harg4 arg5 harg5 arg6 harg6 arg7 harg7 arg8 harg8 arg9 harg9 arg10 harg10 hc0 x0 x1 x2 x3 x4 x5 x6 xo8 xo9) = stepB x0 x1 x2 x3 x4 x5 x6 xo8 xo9 := by
  unfold stepB out1_B_7 out1_B_8 out1_B_9
  rw [View.read_writes_eq_canon _ _ _ (fun y => cover1_B_7 ..), View.read_writes_eq_canon _ _ _ (fun y => cover1_B_8 ..), View.read_writes_eq_canon _ _ _ (fun y => cover1_B_9 ..)]
  unfold kernelRun1_B
  dsimp only
  sl_unfold_words
  rw [View.canon_unit_zero hz, View.canon_unit_zero hz, View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S1000x128) hz, View.ld_unit_zero (S := S128x128) hz, View.ld_unit_zero (S := S1x128) hz, View.ld_unit_zero (S := S128x10) hz, View.ld_unit_zero (S := S1x10) hz, View.ld_unit_zero (S := S1x1280) hz]

end Pieces

variable (V : (c : Dev nD) → (b : Ref sig .tc) → Buf (Elt Ideal) ((c : Thread nD τ).loc b))

abbrev H (c : Dev nD) : Cert.Spec.Mat 50000 128 := Hm (V c main_arg6) (V c main_v12) (V c main_arg8) (V c main_v13) (a2 (V c main_v11))
abbrev O (c : Dev nD) : Cert.Spec.Mat 50000 1280 := Om (V c main_arg6) (V c main_v12) (V c main_arg8) (V c main_v13) (V c main_arg10) (V c main_v14) (a2 (V c main_v11))

theorem hN : cfg1.N = 50 := N_1

theorem idx0 : ∀ t : Fin cfg1.N,
    (∀ a, win1_1.index t a = 0) ∧ (∀ a, win1_2.index t a = 0) ∧ (∀ a, win1_3.index t a = 0) ∧ (∀ a, win1_4.index t a = 0) ∧ (∀ a, win1_5.index t a = 0) ∧ (∀ a, win1_6.index t a = 0) ∧ (∀ a, win1_8.index t a = 0) ∧ (∀ a, win1_9.index t a = 0)
    ∧ win1_0.index t (0 : Fin 2) = t.val ∧ win1_0.index t (1 : Fin 2) = 0 ∧ win1_7.index t (0 : Fin 2) = t.val ∧ win1_7.index t (1 : Fin 2) = 0 :=
  (by decide +kernel : ∀ t : Fin grid1.N, _)

theorem blkOut_apply (c : Dev nD) (t : Fin cfg1.N) (r : Fin 1000) (q : Fin 128) :
    (iblk1 V c 0 t : Vec Ideal S1000x128 .f32) (ix2 r q) = a2 (V c main_v11) (rowOf hN t.val t.isLt r) q := by
  show V c main_v11 (((cfg1.win 0).blk t).view.emb (ix2 r q)) = V c main_v11 (ix2 (rowOf hN t.val t.isLt r) q)
  refine congrArg (V c main_v11) (funext fun a => Fin.ext ?_)
  obtain ⟨e0, e1, -⟩ := (idx0 t).2.2.2.2.2.2.2.2
  match a with
  | ⟨0, _⟩ => show win1_0.index t (0 : Fin 2) * 1000 + 1 * r.val = 1000 * t.val + r.val; rw [e0]; omega
  | ⟨1, _⟩ => show win1_0.index t (1 : Fin 2) * 128 + 1 * q.val = q.val; rw [e1]; omega

theorem blkWa_eq (c : Dev nD) (t : Fin cfg1.N) : (iblk1 V c 1 t : Vec Ideal S128x128 .f32) = V c main_arg6 :=
  funext fun y => congrArg (V c main_arg6) (funext fun a => Fin.ext (Window.rect_emb_val_of_index_zero win1_1 t a ((idx0 t).1 a) y))
theorem blkBa_eq (c : Dev nD) (t : Fin cfg1.N) : (iblk1 V c 2 t : Vec Ideal S1x128 .f32) = V c main_v12 :=
  funext fun y => congrArg (V c main_v12) (funext fun a => Fin.ext (Window.rect_emb_val_of_index_zero win1_2 t a ((idx0 t).2.1 a) y))
theorem blkWb_eq (c : Dev nD) (t : Fin cfg1.N) : (iblk1 V c 3 t : Vec Ideal S128x128 .f32) = V c main_arg8 :=
  funext fun y => congrArg (V c main_arg8) (funext fun a => Fin.ext (Window.rect_emb_val_of_index_zero win1_3 t a ((idx0 t).2.2.1 a) y))
theorem blkBb_eq (c : Dev nD) (t : Fin cfg1.N) : (iblk1 V c 4 t : Vec Ideal S1x128 .f32) = V c main_v13 :=
  funext fun y => congrArg (V c main_v13) (funext fun a => Fin.ext (Window.rect_emb_val_of_index_zero win1_4 t a ((idx0 t).2.2.2.1 a) y))
theorem blkLw_eq (c : Dev nD) (t : Fin cfg1.N) : (iblk1 V c 5 t : Vec Ideal S128x10 .f32) = V c main_arg10 :=
  funext fun y => congrArg (V c main_arg10) (funext fun a => Fin.ext (Window.rect_emb_val_of_index_zero win1_5 t a ((idx0 t).2.2.2.2.1 a) y))
theorem blkLb_eq (c : Dev nD) (t : Fin cfg1.N) : (iblk1 V c 6 t : Vec Ideal S1x10 .f32) = V c main_v14 :=
  funext fun y => congrArg (V c main_v14) (funext fun a => Fin.ext (Window.rect_emb_val_of_index_zero win1_6 t a ((idx0 t).2.2.2.2.2.1 a) y))

theorem outs_A (c : Dev nD) (t : Fin cfg1.N) (h0 : t.val % 50 = 0) :
    outsAt1 V c t.val t.isLt = stepA (iblk1 V c 0 t) (V c main_arg6) (V c main_v12) (V c main_arg8) (V c main_v13) (V c main_arg10) (V c main_v14) := by
  rw [outsAt1_A V c t h0, piecesA .., blkWa_eq, blkBa_eq, blkWb_eq, blkBb_eq, blkLw_eq, blkLb_eq]

theorem outs_B (c : Dev nD) (t : Fin cfg1.N) (h0 : ¬t.val % 50 = 0) :
    outsAt1 V c t.val t.isLt = stepB (iblk1 V c 0 t) (V c main_arg6) (V c main_v12) (V c main_arg8) (V c main_v13) (V c main_arg10) (V c main_v14)
      (outsAt1 V c (t.val - 1) (Nat.lt_of_le_of_lt (Nat.sub_le _ _) t.isLt)).2.1 (outsAt1 V c (t.val - 1) (Nat.lt_of_le_of_lt (Nat.sub_le _ _) t.isLt)).2.2 := by
  rw [outsAt1_B V c t h0, piecesB .., blkWa_eq, blkBa_eq, blkWb_eq, blkBb_eq, blkLw_eq, blkLb_eq]

theorem run1 (c : Dev nD) :
    (∀ n h (r : Fin 1000) (q : Fin 128), (outsAt1 V c n h).1 (ix2 r q) = H V c (rowOf hN n h r) q)
    ∧ (∀ n h, n % 50 = 49 → ∀ j : Fin 1280, (outsAt1 V c n h).2.1 (ix2 (0 : Fin 1) j) = Cert.Spec.colSum (O V c) j)
    ∧ (∀ n h, n % 50 = 49 → ∀ j : Fin 1280, (outsAt1 V c n h).2.2 (ix2 (0 : Fin 1) j) = Cert.Spec.colSumSq (O V c) j) :=
  run hN (outsAt1 V c) (fun n h => iblk1 V c 0 ⟨n, h⟩) _ _ _ _ _ _ _ (fun n h r q => blkOut_apply V c ⟨n, h⟩ r q)
    (fun n h h0 => outs_A V c ⟨n, h⟩ h0) (fun n h h0 => outs_B V c ⟨n, h⟩ h0)

abbrev hidArr (c : Dev nD) : S50000x128.Idx → EReal :=
  fun i => H V c ⟨(i 0).val, idx2_lt0 i⟩ ⟨(i 1).val, idx2_lt1 i⟩

theorem emb_hid (t : Fin cfg1.N) (r : Fin 1000) (q : Fin 128) :
    ((cfg1.win 7).blk t).view.emb (ix2 r q) = ix2 (rowOf hN t.val t.isLt r) q := by
  refine funext fun a => Fin.ext ?_
  obtain ⟨e0, e1⟩ := (idx0 t).2.2.2.2.2.2.2.2.2.2
  match a with
  | ⟨0, _⟩ => show win1_7.index t (0 : Fin 2) * 1000 + 1 * r.val = 1000 * t.val + r.val; rw [e0]; omega
  | ⟨1, _⟩ => show win1_7.index t (1 : Fin 2) * 128 + 1 * q.val = q.val; rw [e1]; omega

theorem cover_hid (i : S50000x128.Idx) :
    ∃ t : Fin cfg1.N, (cfg1.win 7).flush t = true ∧ i ∈ ((cfg1.win 7).blk t).view.set := by
  have hi : (i 0).val < 50000 := idx2_lt0 i
  have hq : (i 1).val < 128 := idx2_lt1 i
  obtain ⟨t, ht⟩ : ∃ t : Fin cfg1.N, t.val = (i 0).val / 1000 := ⟨⟨(i 0).val / 1000, by rw [hN]; omega⟩, rfl⟩
  refine ⟨t, flush1_7 t, ?_⟩
  show i ∈ ((View.whole main_v17_0).slice (win1_7.rect t)).set
  rw [View.set_slice_whole, Rect.mem_set_unit]
  obtain ⟨e0, e1⟩ := (idx0 t).2.2.2.2.2.2.2.2.2.2
  intro a
  match a with
  | ⟨0, _⟩ =>
    show win1_7.index t (0 : Fin 2) * 1000 ≤ (i 0).val ∧ (i 0).val < win1_7.index t (0 : Fin 2) * 1000 + 1000
    rw [e0]; omega
  | ⟨1, _⟩ =>
    show win1_7.index t (1 : Fin 2) * 128 ≤ (i 1).val ∧ (i 1).val < win1_7.index t (1 : Fin 2) * 128 + 128
    rw [e1]; omega

theorem value_h (c : Dev nD) (n : Fin 50000) (f : Fin 128) :
    (dat1 (F := Ideal) V c).arrAt 7 cfg1.N (ix2 n f) = H V c n f :=
  (dat1 (F := Ideal) V c).arrAt_forall_of_cover 7 (fun i v => v = hidArr V c i) (fun t _ y => by
    obtain ⟨r, q, rfl⟩ : ∃ (r : Fin 1000) (q : Fin 128), y = ix2 r q := ⟨y 0, y 1, eq_ix2 y⟩
    rw [emb_hid]
    exact (cast_eq _ _).trans ((congrFun (after1_7 V c t) _).trans ((run1 V c).1 t.val t.isLt r q))) cover_hid (ix2 n f)

theorem emb_sum (t : Fin cfg1.N) (y : S1x1280.Idx) : ((cfg1.win 8).blk t).view.emb y = y :=
  funext fun a => Fin.ext (Window.rect_emb_val_of_index_zero win1_8 t a ((idx0 t).2.2.2.2.2.2.1 a) y)
theorem emb_sq (t : Fin cfg1.N) (y : S1x1280.Idx) : ((cfg1.win 9).blk t).view.emb y = y :=
  funext fun a => Fin.ext (Window.rect_emb_val_of_index_zero win1_9 t a ((idx0 t).2.2.2.2.2.2.2.1 a) y)

theorem cover_sum (i : S1x1280.Idx) :
    ∃ t : Fin cfg1.N, (cfg1.win 8).flush t = true ∧ i ∈ ((cfg1.win 8).blk t).view.set := by
  obtain ⟨t, ht⟩ : ∃ t : Fin cfg1.N, t.val = 49 := ⟨⟨49, by rw [hN]; omega⟩, rfl⟩
  refine ⟨t, (flush1_8 t).mpr (by rw [ht]), ?_⟩
  show i ∈ ((View.whole main_v17_1).slice (win1_8.rect t)).set
  rw [View.set_slice_whole, Rect.mem_set_unit]
  intro a
  rw [(idx0 t).2.2.2.2.2.2.1 a, Nat.zero_mul, Nat.zero_add]
  exact ⟨Nat.zero_le _, (i a).isLt⟩
theorem cover_sq (i : S1x1280.Idx) :
    ∃ t : Fin cfg1.N, (cfg1.win 9).flush t = true ∧ i ∈ ((cfg1.win 9).blk t).view.set := by
  obtain ⟨t, ht⟩ : ∃ t : Fin cfg1.N, t.val = 49 := ⟨⟨49, by rw [hN]; omega⟩, rfl⟩
  refine ⟨t, (flush1_9 t).mpr (by rw [ht]), ?_⟩
  show i ∈ ((View.whole main_v17_2).slice (win1_9.rect t)).set
  rw [View.set_slice_whole, Rect.mem_set_unit]
  intro a
  rw [(idx0 t).2.2.2.2.2.2.2.1 a, Nat.zero_mul, Nat.zero_add]
  exact ⟨Nat.zero_le _, (i a).isLt⟩

theorem value_sum (c : Dev nD) (j : Fin 1280) :
    (dat1 (F := Ideal) V c).arrAt 8 cfg1.N (ix2 (0 : Fin 1) j) = Cert.Spec.colSum (O V c) j :=
  (dat1 (F := Ideal) V c).arrAt_forall_of_cover 8 (fun i v => v = rowArr (Cert.Spec.colSum (O V c)) i) (fun t hf y => by
    obtain ⟨j, rfl⟩ : ∃ j : Fin 1280, y = ix2 (0 : Fin 1) j := ⟨y 1, eq_row y⟩
    rw [emb_sum]
    exact (cast_eq _ _).trans ((congrFun (after1_8 V c t) _).trans ((run1 V c).2.1 t.val t.isLt ((flush1_8 t).mp hf) j))) cover_sum (ix2 (0 : Fin 1) j)
theorem value_sumsq (c : Dev nD) (j : Fin 1280) :
    (dat1 (F := Ideal) V c).arrAt 9 cfg1.N (ix2 (0 : Fin 1) j) = Cert.Spec.colSumSq (O V c) j :=
  (dat1 (F := Ideal) V c).arrAt_forall_of_cover 9 (fun i v => v = rowArr (Cert.Spec.colSumSq (O V c)) i) (fun t hf y => by
    obtain ⟨j, rfl⟩ : ∃ j : Fin 1280, y = ix2 (0 : Fin 1) j := ⟨y 1, eq_row y⟩
    rw [emb_sq]
    exact (cast_eq _ _).trans ((congrFun (after1_9 V c t) _).trans ((run1 V c).2.2 t.val t.isLt ((flush1_9 t).mp hf) j))) cover_sq (ix2 (0 : Fin 1) j)

end Cert.KernelIdeal.K1

end
-- ==== Proof.K2.lean ====
import proofs.«158783_j47974784696399_1_alg».proof.Proof.Gen.KernelIdeal.Frame
import proofs.«158783_j47974784696399_1_alg».proof.Proof.Spec
import proofs.«158783_j47974784696399_1_alg».proof.Proof.LibRowOps
import proofs.«158783_j47974784696399_1_alg».proof.Proof.Arr
import proofs.«158783_j47974784696399_1_alg».proof.Proof.NormRegion
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.K2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Arr
open Cert.KernelIdeal.NormRegion

variable (V : (c : Dev nD) → (b : Ref sig .tc) → Buf (Elt Ideal) ((c : Thread nD τ).loc b))

theorem out_apply (x0 x1 : Vec Ideal S1000x128 .f32) (x2 : Vec Ideal S128x10 .f32) (x3 : Vec Ideal S1x10 .f32)
    (x4 x5 x6 x7 : Vec Ideal S1x1280 .f32) (p : Fin 1000) (f : Fin 128) :
    out2_8 (F := Ideal) x0 x1 x2 x3 x4 x5 x6 x7 (ix2 p f)
      = Cert.Spec.applyBlock (a2 x1) (a2 x0) (Cert.Spec.gate (a2 x0) (a2 x2) (r1 x3)) (r1 x6) (r1 x7) (r1 x4) (r1 x5) p f := by
  unfold out2_8
  rw [View.canon_unit_zero hz]
  simp only [View.ld_unit_zero (S := S1000x128) hz, View.ld_unit_zero (S := S128x10) hz, View.ld_unit_zero (S := S1x10) hz,
    View.ld_unit_zero (S := S1x1280) hz]
  exact body_apply x0 x1 x2 x3 x6 x7 x4 x5 p f

theorem idx_facts : ∀ t : Fin cfg2.N, ∀ a : Fin 2,
    (win2_0.index t a = ![t.val, 0] a ∧ win2_1.index t a = ![t.val, 0] a ∧ win2_8.index t a = ![t.val, 0] a)
    ∧ win2_2.index t a = 0 ∧ win2_3.index t a = 0 ∧ win2_4.index t a = 0 ∧ win2_5.index t a = 0 ∧ win2_6.index t a = 0
    ∧ win2_7.index t a = 0 :=
  (by decide +kernel : ∀ t : Fin grid2.N, _)

def G (c : Dev nD) : S50000x128.Idx → EReal := fun i =>
  Cert.Spec.applyBlock (a2 (V c main_v11)) (a2 (V c main_v17_0))
    (Cert.Spec.gate (a2 (V c main_v17_0)) (a2 (V c main_arg10)) (r1 (V c main_v14)))
    (r1 (V c main_v19)) (r1 (V c main_v26)) (r1 (V c main_v15)) (r1 (V c main_v16)) (i 0) (i 1)

-- the block's output depends on a row of its inputs only: computed on the blocks of point t it is the array's, at row 1000 t + p
theorem flushed_eq (c : Dev nD) (t : Fin cfg2.N) :
    (dat2 (F := Ideal) V c).flushed 8 t = ((cfg2.win 8).blk t).view.read (Elt Ideal) (G V c) := by
  show (cfg2.win 8).cut (grid2.coords t) ((dat2 (F := Ideal) V c).after 8 t) = _
  rw [after2_8]
  funext j
  obtain ⟨p, f, rfl⟩ : ∃ (p : Fin 1000) (f : Fin 128), j = ix2 p f := ⟨j 0, j 1, eq_ix2 j⟩
  have ht : t.val < 50 := lt_of_lt_of_eq t.isLt N_2
  have h := idx_facts t
  have e0 : a2 (iblk2 V c 0 t) = fun p => a2 (V c main_v17_0) (rowAt t.val ht p) := funext fun p => funext fun k =>
    congrArg (V c main_v17_0) (rows_emb _ _ _ ht (win2_0.rect_emb_val t) (fun a => (h a).1.1) p k)
  have e1 : a2 (iblk2 V c 1 t) = fun p => a2 (V c main_v11) (rowAt t.val ht p) := funext fun p => funext fun k =>
    congrArg (V c main_v11) (rows_emb _ _ _ ht (win2_1.rect_emb_val t) (fun a => (h a).1.2.1) p k)
  have e2 : (iblk2 V c 2 t : Vec Ideal S128x10 .f32) = V c main_arg10 :=
    whole_eq (S := S128x10) (V c main_arg10) _ fun y a => win2_2.rect_emb_val_of_index_zero t a (h a).2.1 y
  have e3 : (iblk2 V c 3 t : Vec Ideal S1x10 .f32) = V c main_v14 :=
    whole_eq (S := S1x10) (V c main_v14) _ fun y a => win2_3.rect_emb_val_of_index_zero t a (h a).2.2.1 y
  have e4 : (iblk2 V c 4 t : Vec Ideal S1x1280 .f32) = V c main_v15 :=
    whole_eq (S := S1x1280) (V c main_v15) _ fun y a => win2_4.rect_emb_val_of_index_zero t a (h a).2.2.2.1 y
  have e5 : (iblk2 V c 5 t : Vec Ideal S1x1280 .f32) = V c main_v16 :=
    whole_eq (S := S1x1280) (V c main_v16) _ fun y a => win2_5.rect_emb_val_of_index_zero t a (h a).2.2.2.2.1 y
  have e6 : (iblk2 V c 6 t : Vec Ideal S1x1280 .f32) = V c main_v19 :=
    whole_eq (S := S1x1280) (V c main_v19) _ fun y a => win2_6.rect_emb_val_of_index_zero t a (h a).2.2.2.2.2.1 y
  have e7 : (iblk2 V c 7 t : Vec Ideal S1x1280 .f32) = V c main_v26 :=
    whole_eq (S := S1x1280) (V c main_v26) _ fun y a => win2_7.rect_emb_val_of_index_zero t a (h a).2.2.2.2.2.2 y
  refine (out_apply (iblk2 V c 0 t) (iblk2 V c 1 t) (iblk2 V c 2 t) (iblk2 V c 3 t) (iblk2 V c 4 t) (iblk2 V c 5 t) (iblk2 V c 6 t)
    (iblk2 V c 7 t) p f).trans ?_
  rw [e0, e1, e2, e3, e4, e5, e6, e7]
  exact (congrArg (G V c) (rows_emb _ _ _ ht (win2_8.rect_emb_val t) (fun a => (h a).1.2.2) p f)).symm

theorem cover (i : S50000x128.Idx) : ∃ t : Fin cfg2.N, (cfg2.win 8).flush t = true ∧ i ∈ ((cfg2.win 8).blk t).view.set := by
  have ht : (i 0).val / 1000 < cfg2.N := (rows_lt i).trans_eq N_2.symm
  refine ⟨⟨_, ht⟩, flush2_8 _, ?_⟩
  show i ∈ ((View.whole main_v27).slice (win2_8.rect ⟨_, ht⟩)).set
  rw [View.set_slice_whole, Rect.mem_set_unit]
  exact rows_cover i (win2_8.index ⟨_, ht⟩) fun a => (idx_facts _ a).1.2.2

theorem value (c : Dev nD) (n : Fin 50000) (f : Fin 128) :
    (dat2 (F := Ideal) V c).arrAt 8 cfg2.N (ix2 n f)
      = Cert.Spec.applyBlock (a2 (V c main_v11)) (a2 (V c main_v17_0))
          (Cert.Spec.gate (a2 (V c main_v17_0)) (a2 (V c main_arg10)) (r1 (V c main_v14)))
          (r1 (V c main_v19)) (r1 (V c main_v26)) (r1 (V c main_v15)) (r1 (V c main_v16)) n f :=
  congrFun ((dat2 (F := Ideal) V c).arrAt_eq_of_cover 8 (G V c) (fun t _ => flushed_eq V c t) cover) (ix2 n f)

end Cert.KernelIdeal.K2

end
-- ==== Proof.K3.lean ====
import proofs.«158783_j47974784696399_1_alg».proof.Proof.StatRegion

set_option maxRecDepth 16384

noncomputable section

namespace Cert.KernelIdeal.K3

open Cert.KernelIdeal Cert.KernelIdeal.Gen Cert.KernelIdeal.Stat Idealize.ShloMosaic Idealize.ShloMosaic.TcCoe Idealize.ShloMosaic.ValueIdx Idealize.SL.Sem
open Idealize.ShloMosaic.Pipeline (Dat Cfg Window)
open Cert.Arr
open Idealize.ShloMosaic.Tactic

section Pieces
variable {F : FTy → Type} [FloatOps F] (c : Dev nD) (i : grid3.Coords) (arg1 : Memref sig .tc .vmem S1000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x10 .f32) (harg6 : arg6.IsWhole) (arg7 : Memref sig .tc .vmem S1x10 .f32) (harg7 : arg7.IsWhole) (arg8 : Memref sig .tc .vmem S1000x128 .f32) (harg8 : arg8.IsWhole) (arg9 : Memref sig .tc .vmem S1x1280 .f32) (harg9 : arg9.IsWhole) (arg10 : Memref sig .tc .vmem S1x1280 .f32) (harg10 : arg10.IsWhole)
  (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32)

theorem piecesA (hc0 : cond3_0 i) :
    (out3_A_7 c i arg1 harg1 arg2 harg2 arg3 harg3 arg4 harg4 arg5 harg5 arg6 harg6 arg7 harg7 arg8 harg8 arg9 harg9 arg10 harg10 hc0 x0 x1 x2 x3 x4 x5 x6, out3_A_8 c i arg1 harg1 arg2 harg2 arg3 harg3 arg4 harg4 arg5 harg5 arg6 harg6 arg7 harg7 arg8 harg8 arg9 harg9 arg10 harg10 hc0 x0 x1 x2 x3 x4 x5 x6, out3_A_9 c i arg1 harg1 arg2 harg2 arg3 harg3 arg4 harg4 arg5 harg5 arg6 harg6 arg7 harg7 arg8 harg8 arg9 harg9 arg10 harg10 hc0 x0 x1 x2 x3 x4 x5 x6) = stepA x0 x1 x2 x3 x4 x5 x6 := by
  unfold stepA out3_A_7 out3_A_8 out3_A_9
  rw [View.read_writes_eq_canon _ _ _ (fun y => cover3_A_7 ..), View.read_writes_eq_canon _ _ _ (fun y => cover3_A_8 ..), View.read_writes_eq_canon _ _ _ (fun y => cover3_A_9 ..)]
  unfold kernelRun3_A
  dsimp only
  sl_unfold_words
  rw [View.canon_unit_zero hz, View.canon_cons_unit_zero (S := S1x1280) hz, View.readCov_unit_zero (S := S1x1280) _ hz, View.canon_cons_unit_zero (S := S1x1280) hz, View.readCov_unit_zero (S := S1x1280) _ hz]
  simp only [View.readAt_eq_ld, harg1.read_unread, harg2.read_unread, harg3.read_unread, harg4.read_unread, harg5.read_unread, harg6.read_unread, harg7.read_unread, View.ld_unit_zero (S := S1000x128) hz, View.ld_unit_zero (S := S128x128) hz, View.ld_unit_zero (S := S1x128) hz, View.ld_unit_zero (S := S128x10) hz, View.ld_unit_zero (S := S1x10) hz]
  rfl

theorem piecesB (hc0 : ¬cond3_0 i) (xo8 xo9 : Vec F S1x1280 .f32) :
    (out3_B_7 c i arg1 harg1 arg2 harg2 arg3 harg3 arg4 harg4 arg5 harg5 arg6 harg6 arg7 harg7 arg8 harg8 arg9 harg9 arg10 harg10 hc0 x0 x1 x2 x3 x4 x5 x6 xo8 xo9, out3_B_8 c i arg1 harg1 arg2 harg2 arg3 harg3 arg4 harg4 arg5 harg5 arg6 harg6 arg7 harg7 arg8 harg8 arg9 harg9 arg10 harg10 hc0 x0 x1 x2 x3 x4 x5 x6 xo8 xo9, out3_B_9 c i arg1 harg1 arg2 harg2 arg3 harg3 arg4 harg4 arg5 harg5 arg6 harg6 arg7 harg7 arg8 harg8 arg9 harg9 arg10 harg10 hc0 x0 x1 x2 x3 x4 x5 x6 xo8 xo9) = stepB x0 x1 x2 x3 x4 x5 x6 xo8 xo9 := by
  unfold stepB out3_B_7 out3_B_8 out3_B_9
  rw [View.read_writes_eq_canon _ _ _ (fun y => cover3_B_7 ..), View.read_writes_eq_canon _ _ _ (fun y => cover3_B_8 ..), View.read_writes_eq_canon _ _ _ (fun y => cover3_B_9 ..)]
  unfold kernelRun3_B
  dsimp only
  sl_unfold_words
  rw [View.canon_unit_zero hz, View.canon_unit_zero hz, View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S1000x128) hz, View.ld_unit_zero (S := S128x128) hz, View.ld_unit_zero (S := S1x128) hz, View.ld_unit_zero (S := S128x10) hz, View.ld_unit_zero (S := S1x10) hz, View.ld_unit_zero (S := S1x1280) hz]
  rfl

end Pieces

variable (V : (c : Dev nD) → (b : Ref sig .tc) → Buf (Elt Ideal) ((c : Thread nD τ).loc b))

abbrev H (c : Dev nD) : Cert.Spec.Mat 50000 128 := Hm (V c main_arg14) (V c main_v28) (V c main_arg16) (V c main_v29) (a2 (V c main_v27))
abbrev O (c : Dev nD) : Cert.Spec.Mat 50000 1280 := Om (V c main_arg14) (V c main_v28) (V c main_arg16) (V c main_v29) (V c main_arg18) (V c main_v30) (a2 (V c main_v27))

theorem hN : cfg3.N = 50 := N_3

theorem idx0 : ∀ t : Fin cfg3.N,
    (∀ a, win3_1.index t a = 0) ∧ (∀ a, win3_2.index t a = 0) ∧ (∀ a, win3_3.index t a = 0) ∧ (∀ a, win3_4.index t a = 0) ∧ (∀ a, win3_5.index t a = 0) ∧ (∀ a, win3_6.index t a = 0) ∧ (∀ a, win3_8.index t a = 0) ∧ (∀ a, win3_9.index t a = 0)
    ∧ win3_0.index t (0 : Fin 2) = t.val ∧ win3_0.index t (1 : Fin 2) = 0 ∧ win3_7.index t (0 : Fin 2) = t.val ∧ win3_7.index t (1 : Fin 2) = 0 :=
  (by decide +kernel : ∀ t : Fin grid3.N, _)

theorem blkOut_apply (c : Dev nD) (t : Fin cfg3.N) (r : Fin 1000) (q : Fin 128) :
    (iblk3 V c 0 t : Vec Ideal S1000x128 .f32) (ix2 r q) = a2 (V c main_v27) (rowOf hN t.val t.isLt r) q := by
  show V c main_v27 (((cfg3.win 0).blk t).view.emb (ix2 r q)) = V c main_v27 (ix2 (rowOf hN t.val t.isLt r) q)
  refine congrArg (V c main_v27) (funext fun a => Fin.ext ?_)
  obtain ⟨e0, e1, -⟩ := (idx0 t).2.2.2.2.2.2.2.2
  match a with
  | ⟨0, _⟩ => show win3_0.index t (0 : Fin 2) * 1000 + 1 * r.val = 1000 * t.val + r.val; rw [e0]; omega
  | ⟨1, _⟩ => show win3_0.index t (1 : Fin 2) * 128 + 1 * q.val = q.val; rw [e1]; omega

theorem blkWa_eq (c : Dev nD) (t : Fin cfg3.N) : (iblk3 V c 1 t : Vec Ideal S128x128 .f32) = V c main_arg14 :=
  funext fun y => congrArg (V c main_arg14) (funext fun a => Fin.ext (Window.rect_emb_val_of_index_zero win3_1 t a ((idx0 t).1 a) y))
theorem blkBa_eq (c : Dev nD) (t : Fin cfg3.N) : (iblk3 V c 2 t : Vec Ideal S1x128 .f32) = V c main_v28 :=
  funext fun y => congrArg (V c main_v28) (funext fun a => Fin.ext (Window.rect_emb_val_of_index_zero win3_2 t a ((idx0 t).2.1 a) y))
theorem blkWb_eq (c : Dev nD) (t : Fin cfg3.N) : (iblk3 V c 3 t : Vec Ideal S128x128 .f32) = V c main_arg16 :=
  funext fun y => congrArg (V c main_arg16) (funext fun a => Fin.ext (Window.rect_emb_val_of_index_zero win3_3 t a ((idx0 t).2.2.1 a) y))
theorem blkBb_eq (c : Dev nD) (t : Fin cfg3.N) : (iblk3 V c 4 t : Vec Ideal S1x128 .f32) = V c main_v29 :=
  funext fun y => congrArg (V c main_v29) (funext fun a => Fin.ext (Window.rect_emb_val_of_index_zero win3_4 t a ((idx0 t).2.2.2.1 a) y))
theorem blkLw_eq (c : Dev nD) (t : Fin cfg3.N) : (iblk3 V c 5 t : Vec Ideal S128x10 .f32) = V c main_arg18 :=
  funext fun y => congrArg (V c main_arg18) (funext fun a => Fin.ext (Window.rect_emb_val_of_index_zero win3_5 t a ((idx0 t).2.2.2.2.1 a) y))
theorem blkLb_eq (c : Dev nD) (t : Fin cfg3.N) : (iblk3 V c 6 t : Vec Ideal S1x10 .f32) = V c main_v30 :=
  funext fun y => congrArg (V c main_v30) (funext fun a => Fin.ext (Window.rect_emb_val_of_index_zero win3_6 t a ((idx0 t).2.2.2.2.2.1 a) y))

theorem outs_A (c : Dev nD) (t : Fin cfg3.N) (h0 : t.val % 50 = 0) :
    outsAt3 V c t.val t.isLt = stepA (iblk3 V c 0 t) (V c main_arg14) (V c main_v28) (V c main_arg16) (V c main_v29) (V c main_arg18) (V c main_v30) := by
  rw [outsAt3_A V c t h0, piecesA .., blkWa_eq, blkBa_eq, blkWb_eq, blkBb_eq, blkLw_eq, blkLb_eq]

theorem outs_B (c : Dev nD) (t : Fin cfg3.N) (h0 : ¬t.val % 50 = 0) :
    outsAt3 V c t.val t.isLt = stepB (iblk3 V c 0 t) (V c main_arg14) (V c main_v28) (V c main_arg16) (V c main_v29) (V c main_arg18) (V c main_v30)
      (outsAt3 V c (t.val - 1) (Nat.lt_of_le_of_lt (Nat.sub_le _ _) t.isLt)).2.1 (outsAt3 V c (t.val - 1) (Nat.lt_of_le_of_lt (Nat.sub_le _ _) t.isLt)).2.2 := by
  rw [outsAt3_B V c t h0, piecesB .., blkWa_eq, blkBa_eq, blkWb_eq, blkBb_eq, blkLw_eq, blkLb_eq]

theorem run3 (c : Dev nD) :
    (∀ n h (r : Fin 1000) (q : Fin 128), (outsAt3 V c n h).1 (ix2 r q) = H V c (rowOf hN n h r) q)
    ∧ (∀ n h, n % 50 = 49 → ∀ j : Fin 1280, (outsAt3 V c n h).2.1 (ix2 (0 : Fin 1) j) = Cert.Spec.colSum (O V c) j)
    ∧ (∀ n h, n % 50 = 49 → ∀ j : Fin 1280, (outsAt3 V c n h).2.2 (ix2 (0 : Fin 1) j) = Cert.Spec.colSumSq (O V c) j) :=
  run hN (outsAt3 V c) (fun n h => iblk3 V c 0 ⟨n, h⟩) _ _ _ _ _ _ _ (fun n h r q => blkOut_apply V c ⟨n, h⟩ r q)
    (fun n h h0 => outs_A V c ⟨n, h⟩ h0) (fun n h h0 => outs_B V c ⟨n, h⟩ h0)

abbrev hidArr (c : Dev nD) : S50000x128.Idx → EReal :=
  fun i => H V c ⟨(i 0).val, idx2_lt0 i⟩ ⟨(i 1).val, idx2_lt1 i⟩

theorem emb_hid (t : Fin cfg3.N) (r : Fin 1000) (q : Fin 128) :
    ((cfg3.win 7).blk t).view.emb (ix2 r q) = ix2 (rowOf hN t.val t.isLt r) q := by
  refine funext fun a => Fin.ext ?_
  obtain ⟨e0, e1⟩ := (idx0 t).2.2.2.2.2.2.2.2.2.2
  match a with
  | ⟨0, _⟩ => show win3_7.index t (0 : Fin 2) * 1000 + 1 * r.val = 1000 * t.val + r.val; rw [e0]; omega
  | ⟨1, _⟩ => show win3_7.index t (1 : Fin 2) * 128 + 1 * q.val = q.val; rw [e1]; omega

theorem cover_hid (i : S50000x128.Idx) :
    ∃ t : Fin cfg3.N, (cfg3.win 7).flush t = true ∧ i ∈ ((cfg3.win 7).blk t).view.set := by
  have hi : (i 0).val < 50000 := idx2_lt0 i
  have hq : (i 1).val < 128 := idx2_lt1 i
  obtain ⟨t, ht⟩ : ∃ t : Fin cfg3.N, t.val = (i 0).val / 1000 := ⟨⟨(i 0).val / 1000, by rw [hN]; omega⟩, rfl⟩
  refine ⟨t, flush3_7 t, ?_⟩
  show i ∈ ((View.whole main_v33_0).slice (win3_7.rect t)).set
  rw [View.set_slice_whole, Rect.mem_set_unit]
  obtain ⟨e0, e1⟩ := (idx0 t).2.2.2.2.2.2.2.2.2.2
  intro a
  match a with
  | ⟨0, _⟩ =>
    show win3_7.index t (0 : Fin 2) * 1000 ≤ (i 0).val ∧ (i 0).val < win3_7.index t (0 : Fin 2) * 1000 + 1000
    rw [e0]; omega
  | ⟨1, _⟩ =>
    show win3_7.index t (1 : Fin 2) * 128 ≤ (i 1).val ∧ (i 1).val < win3_7.index t (1 : Fin 2) * 128 + 128
    rw [e1]; omega

theorem value_h (c : Dev nD) (n : Fin 50000) (f : Fin 128) :
    (dat3 (F := Ideal) V c).arrAt 7 cfg3.N (ix2 n f) = H V c n f :=
  (dat3 (F := Ideal) V c).arrAt_forall_of_cover 7 (fun i v => v = hidArr V c i) (fun t _ y => by
    obtain ⟨r, q, rfl⟩ : ∃ (r : Fin 1000) (q : Fin 128), y = ix2 r q := ⟨y 0, y 1, eq_ix2 y⟩
    rw [emb_hid]
    exact (cast_eq _ _).trans ((congrFun (after3_7 V c t) _).trans ((run3 V c).1 t.val t.isLt r q))) cover_hid (ix2 n f)

theorem emb_sum (t : Fin cfg3.N) (y : S1x1280.Idx) : ((cfg3.win 8).blk t).view.emb y = y :=
  funext fun a => Fin.ext (Window.rect_emb_val_of_index_zero win3_8 t a ((idx0 t).2.2.2.2.2.2.1 a) y)
theorem emb_sq (t : Fin cfg3.N) (y : S1x1280.Idx) : ((cfg3.win 9).blk t).view.emb y = y :=
  funext fun a => Fin.ext (Window.rect_emb_val_of_index_zero win3_9 t a ((idx0 t).2.2.2.2.2.2.2.1 a) y)

theorem cover_sum (i : S1x1280.Idx) :
    ∃ t : Fin cfg3.N, (cfg3.win 8).flush t = true ∧ i ∈ ((cfg3.win 8).blk t).view.set := by
  obtain ⟨t, ht⟩ : ∃ t : Fin cfg3.N, t.val = 49 := ⟨⟨49, by rw [hN]; omega⟩, rfl⟩
  refine ⟨t, (flush3_8 t).mpr (by rw [ht]), ?_⟩
  show i ∈ ((View.whole main_v33_1).slice (win3_8.rect t)).set
  rw [View.set_slice_whole, Rect.mem_set_unit]
  intro a
  rw [(idx0 t).2.2.2.2.2.2.1 a, Nat.zero_mul, Nat.zero_add]
  exact ⟨Nat.zero_le _, (i a).isLt⟩
theorem cover_sq (i : S1x1280.Idx) :
    ∃ t : Fin cfg3.N, (cfg3.win 9).flush t = true ∧ i ∈ ((cfg3.win 9).blk t).view.set := by
  obtain ⟨t, ht⟩ : ∃ t : Fin cfg3.N, t.val = 49 := ⟨⟨49, by rw [hN]; omega⟩, rfl⟩
  refine ⟨t, (flush3_9 t).mpr (by rw [ht]), ?_⟩
  show i ∈ ((View.whole main_v33_2).slice (win3_9.rect t)).set
  rw [View.set_slice_whole, Rect.mem_set_unit]
  intro a
  rw [(idx0 t).2.2.2.2.2.2.2.1 a, Nat.zero_mul, Nat.zero_add]
  exact ⟨Nat.zero_le _, (i a).isLt⟩

theorem value_sum (c : Dev nD) (j : Fin 1280) :
    (dat3 (F := Ideal) V c).arrAt 8 cfg3.N (ix2 (0 : Fin 1) j) = Cert.Spec.colSum (O V c) j :=
  (dat3 (F := Ideal) V c).arrAt_forall_of_cover 8 (fun i v => v = rowArr (Cert.Spec.colSum (O V c)) i) (fun t hf y => by
    obtain ⟨j, rfl⟩ : ∃ j : Fin 1280, y = ix2 (0 : Fin 1) j := ⟨y 1, eq_row y⟩
    rw [emb_sum]
    exact (cast_eq _ _).trans ((congrFun (after3_8 V c t) _).trans ((run3 V c).2.1 t.val t.isLt ((flush3_8 t).mp hf) j))) cover_sum (ix2 (0 : Fin 1) j)
theorem value_sumsq (c : Dev nD) (j : Fin 1280) :
    (dat3 (F := Ideal) V c).arrAt 9 cfg3.N (ix2 (0 : Fin 1) j) = Cert.Spec.colSumSq (O V c) j :=
  (dat3 (F := Ideal) V c).arrAt_forall_of_cover 9 (fun i v => v = rowArr (Cert.Spec.colSumSq (O V c)) i) (fun t hf y => by
    obtain ⟨j, rfl⟩ : ∃ j : Fin 1280, y = ix2 (0 : Fin 1) j := ⟨y 1, eq_row y⟩
    rw [emb_sq]
    exact (cast_eq _ _).trans ((congrFun (after3_9 V c t) _).trans ((run3 V c).2.2 t.val t.isLt ((flush3_9 t).mp hf) j))) cover_sq (ix2 (0 : Fin 1) j)

end Cert.KernelIdeal.K3

end
-- ==== Proof.K4.lean ====
import proofs.«158783_j47974784696399_1_alg».proof.Proof.Gen.KernelIdeal.Frame
import proofs.«158783_j47974784696399_1_alg».proof.Proof.Spec
import proofs.«158783_j47974784696399_1_alg».proof.Proof.LibRowOps
import proofs.«158783_j47974784696399_1_alg».proof.Proof.Arr
import proofs.«158783_j47974784696399_1_alg».proof.Proof.NormRegion
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.K4

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Arr
open Cert.KernelIdeal.NormRegion

variable (V : (c : Dev nD) → (b : Ref sig .tc) → Buf (Elt Ideal) ((c : Thread nD τ).loc b))

-- the last region runs the body of the first apply region and adds the combine layer's block
theorem out_apply (x0 x1 x2 : Vec Ideal S1000x128 .f32) (x3 : Vec Ideal S128x10 .f32) (x4 : Vec Ideal S1x10 .f32)
    (x5 x6 x7 x8 : Vec Ideal S1x1280 .f32) (p : Fin 1000) (q : Fin 128) :
    out4_9 (F := Ideal) x0 x1 x2 x3 x4 x5 x6 x7 x8 (ix2 p q)
      = Cert.Spec.applyBlock (a2 x1) (a2 x0) (Cert.Spec.gate (a2 x0) (a2 x3) (r1 x4)) (r1 x7) (r1 x8) (r1 x5) (r1 x6) p q + a2 x2 p q := by
  unfold out4_9
  rw [View.canon_unit_zero hz]
  simp only [View.ld_unit_zero (S := S1000x128) hz, View.ld_unit_zero (S := S128x10) hz, View.ld_unit_zero (S := S1x10) hz,
    View.ld_unit_zero (S := S1x1280) hz]
  unfold k4_pay1
  exact congrArg₂ (· + ·) (body_apply x0 x1 x3 x4 x7 x8 x5 x6 p q) (congrFun (shapeCast_self x2 _) _)

theorem idx_facts : ∀ t : Fin cfg4.N, ∀ a : Fin 2,
    (win4_0.index t a = ![t.val, 0] a ∧ win4_1.index t a = ![t.val, 0] a ∧ win4_2.index t a = ![t.val, 0] a
      ∧ win4_9.index t a = ![t.val, 0] a)
    ∧ win4_3.index t a = 0 ∧ win4_4.index t a = 0 ∧ win4_5.index t a = 0 ∧ win4_6.index t a = 0 ∧ win4_7.index t a = 0
    ∧ win4_8.index t a = 0 :=
  (by decide +kernel : ∀ t : Fin grid4.N, _)

def G (c : Dev nD) : S50000x128.Idx → EReal := fun i =>
  Cert.Spec.applyBlock (a2 (V c main_v27)) (a2 (V c main_v33_0))
      (Cert.Spec.gate (a2 (V c main_v33_0)) (a2 (V c main_arg18)) (r1 (V c main_v30)))
      (r1 (V c main_v35)) (r1 (V c main_v42)) (r1 (V c main_v31)) (r1 (V c main_v32)) (i 0) (i 1)
    + a2 (V c main_v11) (i 0) (i 1)

theorem flushed_eq (c : Dev nD) (t : Fin cfg4.N) :
    (dat4 (F := Ideal) V c).flushed 9 t = ((cfg4.win 9).blk t).view.read (Elt Ideal) (G V c) := by
  show (cfg4.win 9).cut (grid4.coords t) ((dat4 (F := Ideal) V c).after 9 t) = _
  rw [after4_9]
  funext j
  obtain ⟨p, q, rfl⟩ : ∃ (p : Fin 1000) (q : Fin 128), j = ix2 p q := ⟨j 0, j 1, eq_ix2 j⟩
  have ht : t.val < 50 := lt_of_lt_of_eq t.isLt N_4
  have h := idx_facts t
  have e0 : a2 (iblk4 V c 0 t) = fun p => a2 (V c main_v33_0) (rowAt t.val ht p) := funext fun p => funext fun k =>
    congrArg (V c main_v33_0) (rows_emb _ _ _ ht (win4_0.rect_emb_val t) (fun a => (h a).1.1) p k)
  have e1 : a2 (iblk4 V c 1 t) = fun p => a2 (V c main_v27) (rowAt t.val ht p) := funext fun p => funext fun k =>
    congrArg (V c main_v27) (rows_emb _ _ _ ht (win4_1.rect_emb_val t) (fun a => (h a).1.2.1) p k)
  have e2 : a2 (iblk4 V c 2 t) = fun p => a2 (V c main_v11) (rowAt t.val ht p) := funext fun p => funext fun k =>
    congrArg (V c main_v11) (rows_emb _ _ _ ht (win4_2.rect_emb_val t) (fun a => (h a).1.2.2.1) p k)
  have e3 : (iblk4 V c 3 t : Vec Ideal S128x10 .f32) = V c main_arg18 :=
    whole_eq (S := S128x10) (V c main_arg18) _ fun y a => win4_3.rect_emb_val_of_index_zero t a (h a).2.1 y
  have e4 : (iblk4 V c 4 t : Vec Ideal S1x10 .f32) = V c main_v30 :=
    whole_eq (S := S1x10) (V c main_v30) _ fun y a => win4_4.rect_emb_val_of_index_zero t a (h a).2.2.1 y
  have e5 : (iblk4 V c 5 t : Vec Ideal S1x1280 .f32) = V c main_v31 :=
    whole_eq (S := S1x1280) (V c main_v31) _ fun y a => win4_5.rect_emb_val_of_index_zero t a (h a).2.2.2.1 y
  have e6 : (iblk4 V c 6 t : Vec Ideal S1x1280 .f32) = V c main_v32 :=
    whole_eq (S := S1x1280) (V c main_v32) _ fun y a => win4_6.rect_emb_val_of_index_zero t a (h a).2.2.2.2.1 y
  have e7 : (iblk4 V c 7 t : Vec Ideal S1x1280 .f32) = V c main_v35 :=
    whole_eq (S := S1x1280) (V c main_v35) _ fun y a => win4_7.rect_emb_val_of_index_zero t a (h a).2.2.2.2.2.1 y
  have e8 : (iblk4 V c 8 t : Vec Ideal S1x1280 .f32) = V c main_v42 :=
    whole_eq (S := S1x1280) (V c main_v42) _ fun y a => win4_8.rect_emb_val_of_index_zero t a (h a).2.2.2.2.2.2 y
  refine (out_apply (iblk4 V c 0 t) (iblk4 V c 1 t) (iblk4 V c 2 t) (iblk4 V c 3 t) (iblk4 V c 4 t) (iblk4 V c 5 t) (iblk4 V c 6 t)
    (iblk4 V c 7 t) (iblk4 V c 8 t) p q).trans ?_
  rw [e0, e1, e2, e3, e4, e5, e6, e7, e8]
  exact (congrArg (G V c) (rows_emb _ _ _ ht (win4_9.rect_emb_val t) (fun a => (h a).1.2.2.2) p q)).symm

theorem cover (i : S50000x128.Idx) : ∃ t : Fin cfg4.N, (cfg4.win 9).flush t = true ∧ i ∈ ((cfg4.win 9).blk t).view.set := by
  have ht : (i 0).val / 1000 < cfg4.N := (rows_lt i).trans_eq N_4.symm
  refine ⟨⟨_, ht⟩, flush4_9 _, ?_⟩
  show i ∈ ((View.whole main_v43).slice (win4_9.rect ⟨_, ht⟩)).set
  rw [View.set_slice_whole, Rect.mem_set_unit]
  exact rows_cover i (win4_9.index ⟨_, ht⟩) fun a => (idx_facts _ a).1.2.2.2

theorem value (c : Dev nD) (n : Fin 50000) (f : Fin 128) :
    (dat4 (F := Ideal) V c).arrAt 9 cfg4.N (ix2 n f)
      = Cert.Spec.applyBlock (a2 (V c main_v27)) (a2 (V c main_v33_0))
          (Cert.Spec.gate (a2 (V c main_v33_0)) (a2 (V c main_arg18)) (r1 (V c main_v30)))
          (r1 (V c main_v35)) (r1 (V c main_v42)) (r1 (V c main_v31)) (r1 (V c main_v32)) n f
        + a2 (V c main_v11) n f :=
  congrFun ((dat4 (F := Ideal) V c).arrAt_eq_of_cover 9 (G V c) (fun t _ => flushed_eq V c t) cover) (ix2 n f)

end Cert.KernelIdeal.K4

end
-- ==== Proof.RefBlockA.lean ====
import proofs.«158783_j47974784696399_1_alg».proof.Proof.RefBlock

noncomputable section

namespace Cert.ReferenceIdeal.RefBlockA

open Cert.ReferenceIdeal Cert.ReferenceIdeal.Gen Cert.ReferenceIdeal.RefOps Cert.ReferenceIdeal.RefBlock Idealize.ShloMosaic Idealize.ShloMosaic.TcCoe Idealize.ShloMosaic.ValueIdx Idealize.SL.Sem Cert.Arr

abbrev P (W : Valuation τ sig (Elt Ideal)) : Cert.Spec.Params :=
  ⟨a2 (W (Proc.devRef .tc main_arg6)), v1 (W (Proc.devRef .tc main_arg7)), a2 (W (Proc.devRef .tc main_arg8)),
   v1 (W (Proc.devRef .tc main_arg9)), a2 (W (Proc.devRef .tc main_arg10)), v1 (W (Proc.devRef .tc main_arg11)),
   v1 (W (Proc.devRef .tc main_arg12)), v1 (W (Proc.devRef .tc main_arg13))⟩

-- Evaluated at once, the block's operations are its stages composed; each stage is read as the matrix it computes.
theorem value (W : Valuation τ sig (Elt Ideal)) (n : Fin 50000) (f : Fin 128) :
    StableHlo.after (opsA (F := Ideal)) W (Proc.devRef .tc main_v67) (ix2 n f)
      = Cert.Spec.blockR (P W) (a2 (W (Proc.devRef .tc main_v12))) n f := by
  after_results_simp
  simp only [StableHlo.TRef.toBuf, StableHlo.TRef.ofBuf, cast_eq]
  erw [out_apply, norm_eq, mean_eq, var_eq, feat_eq, smax_eq, dense_eq, dense_eq, dense_eq, sp_eq _ _ (zero_bcast _), dense_eq]
  rfl

end Cert.ReferenceIdeal.RefBlockA

end
-- ==== Proof.RefBlockB.lean ====
import proofs.«158783_j47974784696399_1_alg».proof.Proof.RefBlock

noncomputable section

namespace Cert.ReferenceIdeal.RefBlockB

open Cert.ReferenceIdeal Cert.ReferenceIdeal.Gen Cert.ReferenceIdeal.RefOps Cert.ReferenceIdeal.RefBlock Idealize.ShloMosaic Idealize.ShloMosaic.TcCoe Idealize.ShloMosaic.ValueIdx Idealize.SL.Sem Cert.Arr

abbrev P (W : Valuation τ sig (Elt Ideal)) : Cert.Spec.Params :=
  ⟨a2 (W (Proc.devRef .tc main_arg14)), v1 (W (Proc.devRef .tc main_arg15)), a2 (W (Proc.devRef .tc main_arg16)),
   v1 (W (Proc.devRef .tc main_arg17)), a2 (W (Proc.devRef .tc main_arg18)), v1 (W (Proc.devRef .tc main_arg19)),
   v1 (W (Proc.devRef .tc main_arg20)), v1 (W (Proc.devRef .tc main_arg21))⟩

-- Evaluated at once, the block's operations are its stages composed; each stage is read as the matrix it computes.
theorem value (W : Valuation τ sig (Elt Ideal)) (n : Fin 50000) (f : Fin 128) :
    StableHlo.after (opsB (F := Ideal)) W (Proc.devRef .tc main_v122) (ix2 n f)
      = Cert.Spec.blockR (P W) (a2 (W (Proc.devRef .tc main_v67))) n f := by
  after_results_simp
  simp only [StableHlo.TRef.toBuf, StableHlo.TRef.ofBuf, cast_eq]
  erw [out_apply, norm_eq, mean_eq, var_eq, feat_eq, smax_eq, dense_eq, dense_eq, dense_eq, sp_eq _ _ (zero_bcast _), dense_eq]
  rfl

end Cert.ReferenceIdeal.RefBlockB

end
-- ==== Proof.PreReal.lean ====
import proofs.«158783_j47974784696399_1_alg».proof.Pre_finite_inputs
import Idealize.ShloMosaic.PureOps.Ideal
import Idealize.ShloMosaic.Lib.ReduceAll

noncomputable section

namespace Cert.PreReal

open Idealize.ShloMosaic Cert.Pre_finite_inputs

-- an extended real whose magnitude max x (-x) is strictly below ⊤ is a real number: at ⊥ and at ⊤ the magnitude is ⊤
theorem real_of_abs_lt (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  unfold Ideal.cmp at h
  induction x using EReal.rec with
  | bot => simp at h
  | coe r => exact ⟨r, rfl⟩
  | top => simp at h

def AllReal {s : Shape} (x : FVec Ideal s .f32) : Prop := ∀ i, ∃ r : ℝ, x i = (r : EReal)

-- a conjunction over all axes that is 1 had a 1 at every index
theorem real_of_all_lt {s : Shape} {axes : List (Fin s.rank)} {x : FVec Ideal s .f32}
    {hb : S_.BroadcastsInDim s (![] : Fin 0 → Fin s.rank)} {hr : s.ReducesTo axes S_} {hu : 0 < S_.numel}
    {init : IVec S_ 1} {j : S_.Idx}
    (e : Host.reduce IntOp.andi
          (cmpf .olt (Host.absf x) (broadcastInDim s ![] hb (constant (F := Ideal) S_ .f32 0x7F800000#32))) init hr hu j = 1#1) :
    AllReal x :=
  fun i => real_of_abs_lt (x i) (Host.reduce_andi_all _ init hr hu j e i)

theorem real_of_finite [Cert.Pre_finite_inputs.Facts] (x0 : FVec Ideal S50000x128 .f32) (x1 : IVec S2x800000 32)
    (x2 : FVec Ideal S800000x128 .f32) (x3 : FVec Ideal S1x64 .f32) (x4 : FVec Ideal S320x128 .f32)
    (x5 x7 x9 x15 x17 : FVec Ideal S128 .f32) (x6 x8 x14 x16 : FVec Ideal S128x128 .f32) (x10 x18 : FVec Ideal S128x10 .f32)
    (x11 x19 : FVec Ideal S10 .f32) (x12 x13 x20 x21 : FVec Ideal S1280 .f32)
    (h : Cert.Pre_finite_inputs.fn (F := Ideal) x0 x1 x2 x3 x4 x5 x6 x7 x8 x9 x10 x11 x12 x13 x14 x15 x16 x17 x18 x19 x20 x21 = fun _ => 1#1) :
    AllReal x0 ∧ AllReal x2 ∧ AllReal x3 ∧ AllReal x4 ∧ AllReal x5 ∧ AllReal x6 ∧ AllReal x7 ∧ AllReal x8 ∧ AllReal x9 ∧ AllReal x10
      ∧ AllReal x11 ∧ AllReal x12 ∧ AllReal x13 ∧ AllReal x14 ∧ AllReal x15 ∧ AllReal x16 ∧ AllReal x17 ∧ AllReal x18 ∧ AllReal x19
      ∧ AllReal x20 ∧ AllReal x21 := by
  have h0 := congrFun h (fun a => a.elim0)
  simp only [fn, fn_part1, fn_part2, fn_part3, fn_part4, fn_part5, fn_part6, andi, IntOp.andi_eq_one] at h0
  obtain ⟨⟨⟨⟨⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩, e18⟩, e19⟩, e20⟩, e21⟩ := h0
  exact ⟨real_of_all_lt e0, real_of_all_lt e2, real_of_all_lt e3, real_of_all_lt e4,
    real_of_all_lt e5, real_of_all_lt e6, real_of_all_lt e7, real_of_all_lt e8,
    real_of_all_lt e9, real_of_all_lt e10, real_of_all_lt e11, real_of_all_lt e12,
    real_of_all_lt e13, real_of_all_lt e14, real_of_all_lt e15, real_of_all_lt e16,
    real_of_all_lt e17, real_of_all_lt e18, real_of_all_lt e19, real_of_all_lt e20,
    real_of_all_lt e21⟩

end Cert.PreReal

end
-- ==== Proof.MsgsReal.lean ====
import proofs.«158783_j47974784696399_1_alg».proof.Proof.Reals
import Idealize.ShloMosaic.PureOps
import Idealize.ShloMosaic.PureOps.Ideal.Laws

noncomputable section

namespace Cert.MsgsReal

open Idealize.ShloMosaic

-- each entry of an accumulating scatter into zeros is the real 0 plus a finite sum of real update entries
theorem scatter_zero_real {s si su : Shape} (d : ScatterDims s si su) {w : Nat}
    (h : (⟨0, ![]⟩ : Shape).BroadcastsInDim s (![] : Fin 0 → Fin s.rank)) (idx : IVec si w) (u : FVec Ideal su .f32)
    (hu : ∀ i, ∃ r : ℝ, u i = (r : EReal)) (i : s.Idx) :
    ∃ r : ℝ, Host.scatterAdd d (broadcastInDim s ![] h (constant (F := Ideal) ⟨0, ![]⟩ .f32 0x00000000#32)) idx u i
      = (r : EReal) := by
  show ∃ r : ℝ, Ideal.hostScatterAdd d _ idx u i = (r : EReal)
  unfold Ideal.hostScatterAdd
  exact Cert.Spec.add_real ⟨0, Ideal.ofBits_zero_f32⟩ (Cert.Spec.sum_real _ _ fun j _ => hu j)

end Cert.MsgsReal

end
-- ==== Proof.InputsReal.lean ====
import proofs.«158783_j47974784696399_1_alg».proof.Defs
import proofs.«158783_j47974784696399_1_alg».proof.Proof.Gen.KernelIdeal
import proofs.«158783_j47974784696399_1_alg».proof.Proof.Gen.Pre_finite_inputs
import proofs.«158783_j47974784696399_1_alg».proof.Proof.Spec
import proofs.«158783_j47974784696399_1_alg».proof.Proof.Arr
import proofs.«158783_j47974784696399_1_alg».proof.Proof.PreReal
import proofs.«158783_j47974784696399_1_alg».proof.Proof.MsgsReal

noncomputable section

namespace Cert.InputsReal

open Idealize.ShloMosaic Idealize.SL.Sem Idealize.ShloMosaic.ValueIdx Cert.Arr Cert.KernelIdeal Cert.KernelIdeal.Gen

abbrev msgsTerm (m : (ℓ : Loc Cert.KernelIdeal.nD Cert.KernelIdeal.τ Cert.KernelIdeal.sig) → Buf (Elt Ideal) ℓ) (c : Dev Cert.KernelIdeal.nD) :
    FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![0, 0] (m ((c.tc : Thread Cert.KernelIdeal.nD Cert.KernelIdeal.τ).loc Cert.KernelIdeal.main_arg1)) slices_S2x800000_S1x800000_0_0) shapeCasts_S1x800000_S800000))
    (m ((c.tc : Thread Cert.KernelIdeal.nD Cert.KernelIdeal.τ).loc Cert.KernelIdeal.main_arg2))

theorem of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.RealM (a2 (m ((c.tc : Thread Cert.KernelIdeal.nD Cert.KernelIdeal.τ).loc Cert.KernelIdeal.main_arg0)))
    ∧ Cert.Spec.RealM (a2 (msgsTerm m c))
    ∧ Cert.Spec.RealV (r1 (m ((c.tc : Thread Cert.KernelIdeal.nD Cert.KernelIdeal.τ).loc Cert.KernelIdeal.main_arg3)))
    ∧ Cert.Spec.RealM (a2 (m ((c.tc : Thread Cert.KernelIdeal.nD Cert.KernelIdeal.τ).loc Cert.KernelIdeal.main_arg4)))
    ∧ Cert.Spec.RealV (v1 (m ((c.tc : Thread Cert.KernelIdeal.nD Cert.KernelIdeal.τ).loc Cert.KernelIdeal.main_arg5)))
    ∧ Cert.Spec.Params.Real (⟨a2 (m ((c.tc : Thread Cert.KernelIdeal.nD Cert.KernelIdeal.τ).loc Cert.KernelIdeal.main_arg6)), v1 (m ((c.tc : Thread Cert.KernelIdeal.nD Cert.KernelIdeal.τ).loc Cert.KernelIdeal.main_arg7)),
     a2 (m ((c.tc : Thread Cert.KernelIdeal.nD Cert.KernelIdeal.τ).loc Cert.KernelIdeal.main_arg8)), v1 (m ((c.tc : Thread Cert.KernelIdeal.nD Cert.KernelIdeal.τ).loc Cert.KernelIdeal.main_arg9)),
     a2 (m ((c.tc : Thread Cert.KernelIdeal.nD Cert.KernelIdeal.τ).loc Cert.KernelIdeal.main_arg10)), v1 (m ((c.tc : Thread Cert.KernelIdeal.nD Cert.KernelIdeal.τ).loc Cert.KernelIdeal.main_arg11)),
     v1 (m ((c.tc : Thread Cert.KernelIdeal.nD Cert.KernelIdeal.τ).loc Cert.KernelIdeal.main_arg12)), v1 (m ((c.tc : Thread Cert.KernelIdeal.nD Cert.KernelIdeal.τ).loc Cert.KernelIdeal.main_arg13))⟩ : Cert.Spec.Params)
    ∧ Cert.Spec.Params.Real (⟨a2 (m ((c.tc : Thread Cert.KernelIdeal.nD Cert.KernelIdeal.τ).loc Cert.KernelIdeal.main_arg14)), v1 (m ((c.tc : Thread Cert.KernelIdeal.nD Cert.KernelIdeal.τ).loc Cert.KernelIdeal.main_arg15)),
     a2 (m ((c.tc : Thread Cert.KernelIdeal.nD Cert.KernelIdeal.τ).loc Cert.KernelIdeal.main_arg16)), v1 (m ((c.tc : Thread Cert.KernelIdeal.nD Cert.KernelIdeal.τ).loc Cert.KernelIdeal.main_arg17)),
     a2 (m ((c.tc : Thread Cert.KernelIdeal.nD Cert.KernelIdeal.τ).loc Cert.KernelIdeal.main_arg18)), v1 (m ((c.tc : Thread Cert.KernelIdeal.nD Cert.KernelIdeal.τ).loc Cert.KernelIdeal.main_arg19)),
     v1 (m ((c.tc : Thread Cert.KernelIdeal.nD Cert.KernelIdeal.τ).loc Cert.KernelIdeal.main_arg20)), v1 (m ((c.tc : Thread Cert.KernelIdeal.nD Cert.KernelIdeal.τ).loc Cert.KernelIdeal.main_arg21))⟩ : Cert.Spec.Params) := by
  obtain ⟨h0, h2, h3, h4, h5, h6, h7, h8, h9, h10, h11, h12, h13, h14, h15, h16, h17, h18, h19, h20, h21⟩ :=
    Cert.PreReal.real_of_finite _ _ _ _ _ _ _ _ _ _ _ _ _ _ _ _ _ _ _ _ _ _ (hpre c)
  refine ⟨fun i j => h0 _, ?_, fun j => h3 _, fun i j => h4 _, fun j => h5 _,
    ⟨fun i j => h6 _, fun j => h7 _, fun i j => h8 _, fun j => h9 _, fun i j => h10 _, fun j => h11 _,
      fun j => h12 _, fun j => h13 _⟩,
    ⟨fun i j => h14 _, fun j => h15 _, fun i j => h16 _, fun j => h17 _, fun i j => h18 _, fun j => h19 _,
      fun j => h20 _, fun j => h21 _⟩⟩
  exact fun i j => Cert.MsgsReal.scatter_zero_real _ _ _ _ h2 _

end Cert.InputsReal

end
-- ==== Proof.lean ====
import proofs.«158783_j47974784696399_1_alg».proof.Defs
import proofs.«158783_j47974784696399_1_alg».proof.Proof.Gen.Kernel
import proofs.«158783_j47974784696399_1_alg».proof.Proof.Gen.Kernel.Skeleton
import proofs.«158783_j47974784696399_1_alg».proof.Proof.Gen.Kernel.Launch
import proofs.«158783_j47974784696399_1_alg».proof.Proof.Gen.Kernel.Points
import proofs.«158783_j47974784696399_1_alg».proof.Proof.Gen.Kernel.Frame
import proofs.«158783_j47974784696399_1_alg».proof.Proof.Gen.KernelIdeal
import proofs.«158783_j47974784696399_1_alg».proof.Proof.Gen.KernelIdeal.Skeleton
import proofs.«158783_j47974784696399_1_alg».proof.Proof.Gen.KernelIdeal.Launch
import proofs.«158783_j47974784696399_1_alg».proof.Proof.Gen.KernelIdeal.Points
import proofs.«158783_j47974784696399_1_alg».proof.Proof.Gen.KernelIdeal.Frame
import proofs.«158783_j47974784696399_1_alg».proof.Proof.Gen.ReferenceIdeal
import proofs.«158783_j47974784696399_1_alg».proof.Proof.Gen.Pre_finite_inputs
import proofs.«158783_j47974784696399_1_alg».proof.Proof.Assembly
import proofs.«158783_j47974784696399_1_alg».proof.Proof.KChain
import proofs.«158783_j47974784696399_1_alg».proof.Proof.K0
import proofs.«158783_j47974784696399_1_alg».proof.Proof.K1
import proofs.«158783_j47974784696399_1_alg».proof.Proof.K2
import proofs.«158783_j47974784696399_1_alg».proof.Proof.K3
import proofs.«158783_j47974784696399_1_alg».proof.Proof.K4
import proofs.«158783_j47974784696399_1_alg».proof.Proof.KHost
import proofs.«158783_j47974784696399_1_alg».proof.Proof.RefCombine
import proofs.«158783_j47974784696399_1_alg».proof.Proof.RefBlockA
import proofs.«158783_j47974784696399_1_alg».proof.Proof.RefBlockB
import proofs.«158783_j47974784696399_1_alg».proof.Proof.RefChain
import proofs.«158783_j47974784696399_1_alg».proof.Proof.RefArgs
import proofs.«158783_j47974784696399_1_alg».proof.Proof.RefRun
import proofs.«158783_j47974784696399_1_alg».proof.Proof.InputsReal
import Idealize.ShloMosaic.Adequacy
import Idealize.ShloMosaic.Init

noncomputable section

namespace Cert.Proof

open Idealize.ShloMosaic Idealize.SL.Sem Idealize.ShloMosaic.TcCoe Idealize.ShloMosaic.ValueIdx Cert.Arr

theorem regionValues : Cert.KernelIdeal.KChain.RegionValues :=
  ⟨Cert.KernelIdeal.K0.value, Cert.KernelIdeal.K1.value_h, Cert.KernelIdeal.K1.value_sum, Cert.KernelIdeal.K1.value_sumsq, Cert.KernelIdeal.K2.value,
   Cert.KernelIdeal.K3.value_h, Cert.KernelIdeal.K3.value_sum, Cert.KernelIdeal.K3.value_sumsq, Cert.KernelIdeal.K4.value⟩

theorem kernel_value (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (n : Fin 50000) (f : Fin 128) :
    Cert.KernelIdeal.Gen.W10 (F := Ideal) m ρ c (Proc.devRef .tc Cert.KernelIdeal.main_v43) (ix2 n f) = Cert.Assembly.netK m c n f := by
  rw [Cert.KernelIdeal.KChain.result m ρ regionValues c n f, Cert.KernelIdeal.KChain.msgs_eq m ρ c]

theorem reference_value (W : Valuation Cert.ReferenceIdeal.τ Cert.ReferenceIdeal.sig (Elt Ideal)) (n : Fin 50000) (f : Fin 128) :
    StableHlo.after (Cert.ReferenceIdeal.RefOps.ops (F := Ideal)) W (Proc.devRef .tc Cert.ReferenceIdeal.main_v123) (ix2 n f)
      = Cert.Assembly.netR W n f := by
  rw [Cert.ReferenceIdeal.RefChain.result W Cert.ReferenceIdeal.RefCombine.value Cert.ReferenceIdeal.RefBlockA.value
      Cert.ReferenceIdeal.RefBlockB.value n f,
    show Cert.ReferenceIdeal.RefChain.msgs W = Cert.ReferenceIdeal.RefCombine.scat W from Cert.ReferenceIdeal.RefCombine.msgs_eq W]

theorem frame_ri : Cert.frame_ReferenceIdeal := fun m ρ _ =>
  (θ_run Cert.ReferenceIdeal.defs _ _).mono (fun r h c => by
    repeat' apply And.intro
    all_goals exact (h c _).trans (Cert.ReferenceIdeal.RefArgs.ops_keep _ (by decide)))
    (Cert.ReferenceIdeal.RefRun.run m ρ)

theorem algebraic : Cert.algebraic_KernelIdeal_ReferenceIdeal :=
  Cert.Assembly.algebraic_of kernel_value reference_value (fun m hpre c => Cert.InputsReal.of_pre m hpre c)

end Cert.Proof

theorem Cert.Proof.claim : Cert.Claim :=
  ⟨Cert.Kernel.Gen.facts, Cert.KernelIdeal.Gen.facts, Cert.ReferenceIdeal.Gen.facts, Cert.Pre_finite_inputs.Gen.facts,
   fun m ρ _ => Cert.Kernel.Gen.frame m ρ, fun m ρ _ => Cert.KernelIdeal.Gen.frame m ρ, Cert.Proof.frame_ri, trivial, Cert.Proof.algebraic⟩

end
